-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S3x64 : Shape := ⟨2, ![3, 64]⟩
abbrev S64 : Shape := ⟨1, ![64]⟩
abbrev S64x64 : Shape := ⟨2, ![64, 64]⟩
abbrev S192x192 : Shape := ⟨2, ![192, 192]⟩
abbrev S192 : Shape := ⟨1, ![192]⟩
abbrev S192x2 : Shape := ⟨2, ![192, 2]⟩
abbrev S2 : Shape := ⟨1, ![2]⟩
abbrev S2x1600000 : Shape := ⟨2, ![2, 1600000]⟩
abbrev S50000 : Shape := ⟨1, ![50000]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S192x2 : S_.BroadcastsInDim S192x2 (![] : Fin 0 → Fin S192x2.rank)
  reducesTo_S192x2_S_d0_1 : S192x2.ReducesTo [0, 1] S_
  bcast_S_S2 : S_.BroadcastsInDim S2 (![] : Fin 0 → Fin S2.rank)
  reducesTo_S2_S_d0 : S2.ReducesTo [0] S_

variable [Facts]

def fn_part8 {F : FTy → Type} [FloatOps F] (main_arg28 : FVec F S2 .f32) (main_v133 : IVec S_ 1) (main_v136 : IVec S192x2 1) : IVec S_ 1 :=
  let main_c_53 : IVec S_ 1 := constantI S_ 1 1#1
  let main_v137 : IVec S_ 1 := (fun x v => Host.reduce IntOp.andi x v reducesTo_S192x2_S_d0_1 h_S_) main_v136 main_c_53
  let main_v138 : IVec S_ 1 := andi main_v133 main_v137
  let main_v139 : FVec F S2 .f32 := Host.absf main_arg28
  let main_cst_54 : FVec F S_ .f32 := constant S_ .f32 0x7F800000#32
  let main_v140 : FVec F S2 .f32 := broadcastInDim S2 ![] bcast_S_S2 main_cst_54
  let main_v141 : IVec S2 1 := cmpf .olt main_v139 main_v140
  let main_c_55 : IVec S_ 1 := constantI S_ 1 1#1
  let main_v142 : IVec S_ 1 := (fun x v => Host.reduce IntOp.andi x v reducesTo_S2_S_d0 h_S_) main_v141 main_c_55
  let main_v143 : IVec S_ 1 := andi main_v138 main_v142
  main_v143

def fn_part7 {F : FTy → Type} [FloatOps F] (main_arg25 : FVec F S192x192 .f32) (main_arg26 : FVec F S192 .f32) (main_arg27 : FVec F S192x2 .f32) (main_arg28 : FVec F S2 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S192x192 .f32 := Host.absf main_arg25
  let main_cst_48 : FVec F S_ .f32 := constant S_ .f32 0x7F800000#32
  let main_v125 : FVec F S192x192 .f32 := broadcastInDim S192x192 ![] bcast_S_S192x192 main_cst_48
  let main_v126 : IVec S192x192 1 := cmpf .olt main_v124 main_v125
  let main_c_49 : IVec S_ 1 := constantI S_ 1 1#1
  let main_v127 : IVec S_ 1 := (fun x v => Host.reduce IntOp.andi x v reducesTo_S192x192_S_d0_1 h_S_) main_v126 main_c_49
  let main_v128 : IVec S_ 1 := andi main_v123 main_v127
  let main_v129 : FVec F S192 .f32 := Host.absf main_arg26
  let main_cst_50 : FVec F S_ .f32 := constant S_ .f32 0x7F800000#32
  let main_v130 : FVec F S192 .f32 := broadcastInDim S192 ![] bcast_S_S192 main_cst_50
  let main_v131 : IVec S192 1 := cmpf .olt main_v129 main_v130
  let main_c_51 : IVec S_ 1 := constantI S_ 1 1#1
  let main_v132 : IVec S_ 1 := (fun x v => Host.reduce IntOp.andi x v reducesTo_S192_S_d0 h_S_) main_v131 main_c_51
  let main_v133 : IVec S_ 1 := andi main_v128 main_v132
  let main_v134 : FVec F S192x2 .f32 := Host.absf main_arg27
  let main_cst_52 : FVec F S_ .f32 := constant S_ .f32 0x7F800000#32
  let main_v135 : FVec F S192x2 .f32 := broadcastInDim S192x2 ![] bcast_S_S192x2 main_cst_52
  let main_v136 : IVec S192x2 1 := cmpf .olt main_v134 main_v135
  fn_part8 (F := F) main_arg28 main_v133 main_v136

def fn_part6 {F : FTy → Type} [FloatOps F] (main_arg21 : FVec F S64 .f32) (main_arg22 : FVec F S64 .f32) (main_arg23 : FVec F S64x64 .f32) (main_arg24 : FVec F S64 .f32) (main_arg25 : FVec F S192x192 .f32) (main_arg26 : FVec F S192 .f32) (main_arg27 : FVec F S192x2 .f32) (main_arg28 : FVec F S2 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg22
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg23
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg24
  fn_part7 (F := F) main_arg25 main_arg26 main_arg27 main_arg28 main_v118 main_v119

def fn_part5 {F : FTy → Type} [FloatOps F] (main_arg18 : FVec F S64 .f32) (main_arg19 : FVec F S64 .f32) (main_arg20 : FVec F S64 .f32) (main_arg21 : FVec F S64 .f32) (main_arg22 : FVec F S64 .f32) (main_arg23 : FVec F S64x64 .f32) (main_arg24 : FVec F S64 .f32) (main_arg25 : FVec F S192x192 .f32) (main_arg26 : FVec F S192 .f32) (main_arg27 : FVec F S192x2 .f32) (main_arg28 : FVec F S2 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x64 .f32) (main_arg24 : FVec F S64 .f32) (main_arg25 : FVec F S192x192 .f32) (main_arg26 : FVec F S192 .f32) (main_arg27 : FVec F S192x2 .f32) (main_arg28 : FVec F S2 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x64 .f32) (main_arg24 : FVec F S64 .f32) (main_arg25 : FVec F S192x192 .f32) (main_arg26 : FVec F S192 .f32) (main_arg27 : FVec F S192x2 .f32) (main_arg28 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x64 .f32) (main_arg24 : FVec F S64 .f32) (main_arg25 : FVec F S192x192 .f32) (main_arg26 : FVec F S192 .f32) (main_arg27 : FVec F S192x2 .f32) (main_arg28 : FVec F S2 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S64 .f32) (main_arg5 : FVec F S64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x64 .f32) (main_arg24 : FVec F S64 .f32) (main_arg25 : FVec F S192x192 .f32) (main_arg26 : FVec F S192 .f32) (main_arg27 : FVec F S192x2 .f32) (main_arg28 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S50000x3 .f32) (main_arg1 : FVec F S3x64 .f32) (main_arg2 : FVec F S64 .f32) (main_arg3 : FVec F S64 .f32) (main_arg4 : FVec F S64 .f32) (main_arg5 : FVec F S64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64 .f32) (main_arg22 : FVec F S64 .f32) (main_arg23 : FVec F S64x64 .f32) (main_arg24 : FVec F S64 .f32) (main_arg25 : FVec F S192x192 .f32) (main_arg26 : FVec F S192 .f32) (main_arg27 : FVec F S192x2 .f32) (main_arg28 : FVec F S2 .f32) (main_arg29 : IVec S2x1600000 32) (main_arg30 : IVec S50000 32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S50000x3 : Shape := ⟨2, ![50000, 3]⟩
abbrev S3x64 : Shape := ⟨2, ![3, 64]⟩
abbrev S64 : Shape := ⟨1, ![64]⟩
abbrev S64x64 : Shape := ⟨2, ![64, 64]⟩
abbrev S192x192 : Shape := ⟨2, ![192, 192]⟩
abbrev S192 : Shape := ⟨1, ![192]⟩
abbrev S192x2 : Shape := ⟨2, ![192, 2]⟩
abbrev S2 : Shape := ⟨1, ![2]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S50000x1 : Shape := ⟨2, ![50000, 1]⟩
abbrev S_ : Shape := ⟨0, ![]⟩
abbrev S1600000x1 : Shape := ⟨2, ![1600000, 1]⟩
abbrev S1600000x3 : Shape := ⟨2, ![1600000, 3]⟩
abbrev S1x64 : Shape := ⟨2, ![1, 64]⟩
abbrev S50000x64 : Shape := ⟨2, ![50000, 64]⟩
abbrev S5000x3 : Shape := ⟨2, ![5000, 3]⟩
abbrev S5000x64 : Shape := ⟨2, ![5000, 64]⟩
abbrev S1600000x64 : Shape := ⟨2, ![1600000, 64]⟩
abbrev S50000x192 : Shape := ⟨2, ![50000, 192]⟩
abbrev S512x192 : Shape := ⟨2, ![512, 192]⟩
abbrev S5000x192 : Shape := ⟨2, ![5000, 192]⟩
abbrev S5000x1 : Shape := ⟨2, ![5000, 1]⟩
abbrev S5000x512 : Shape := ⟨2, ![5000, 512]⟩
abbrev S1x192 : Shape := ⟨2, ![1, 192]⟩
abbrev S1x2 : Shape := ⟨2, ![1, 2]⟩
abbrev S512x2 : Shape := ⟨2, ![512, 2]⟩
abbrev S512 : Shape := ⟨1, ![512]⟩
abbrev S512x1 : Shape := ⟨2, ![512, 1]⟩

abbrev nBuf : Space → Nat
  | .hbm => 102
  | .vmem => 54
  | .smem => 0
  | _ => 0

abbrev bufTy : (tb : Table) → Fin (tcTables nBuf tb) → BufTy
  | .hbm, ⟨0, _⟩ => ⟨S50000x3, .f32⟩
  | .hbm, ⟨1, _⟩ => ⟨S3x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64x64, .f32⟩
  | .hbm, ⟨24, _⟩ => ⟨S64, .f32⟩
  | .hbm, ⟨25, _⟩ => ⟨S192x192, .f32⟩
  | .hbm, ⟨26, _⟩ => ⟨S192, .f32⟩
  | .hbm, ⟨27, _⟩ => ⟨S192x2, .f32⟩
  | .hbm, ⟨28, _⟩ => ⟨S2, .f32⟩
  | .hbm, ⟨29, _⟩ => ⟨S2x1600000, .i32⟩
  | .hbm, ⟨30, _⟩ => ⟨S50000, .i32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S50000x1, .i32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x3, .f32⟩
  | .hbm, ⟨45, _⟩ => ⟨S_, .f32⟩
  | .hbm, ⟨46, _⟩ => ⟨S50000x3, .f32⟩
  | .hbm, ⟨47, _⟩ => ⟨S1600000x1, .i32⟩
  | .hbm, ⟨48, _⟩ => ⟨S50000x3, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S50000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S50000x64, .f32⟩
  | .hbm, ⟨67, _⟩ => ⟨S1600000x1, .i32⟩
  | .hbm, ⟨68, _⟩ => ⟨S50000x64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S50000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S_, .f32⟩
  | .hbm, ⟨86, _⟩ => ⟨S50000x64, .f32⟩
  | .hbm, ⟨87, _⟩ => ⟨S1600000x1, .i32⟩
  | .hbm, ⟨88, _⟩ => ⟨S50000x64, .f32⟩
  | .hbm, ⟨89, _⟩ => ⟨S1x64, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S50000x64, .f32⟩
  | .hbm, ⟨96, _⟩ => ⟨S50000x192, .f32⟩
  | .hbm, ⟨97, _⟩ => ⟨S512x192, .f32⟩
  | .hbm, ⟨98, _⟩ => ⟨S1x192, .f32⟩
  | .hbm, ⟨99, _⟩ => ⟨S1x2, .f32⟩
  | .hbm, ⟨100, _⟩ => ⟨S512x2, .f32⟩
  | .hbm, ⟨101, _⟩ => ⟨S512x2, .f32⟩
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S3x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x192, .f32⟩
  | .local _ .vmem, ⟨43, _⟩ => ⟨S5000x192, .f32⟩
  | .local _ .vmem, ⟨44, _⟩ => ⟨S5000x1, .i32⟩
  | .local _ .vmem, ⟨45, _⟩ => ⟨S5000x1, .i32⟩
  | .local _ .vmem, ⟨46, _⟩ => ⟨S512x192, .f32⟩
  | .local _ .vmem, ⟨47, _⟩ => ⟨S512x192, .f32⟩
  | .local _ .vmem, ⟨48, _⟩ => ⟨S192x192, .f32⟩
  | .local _ .vmem, ⟨49, _⟩ => ⟨S1x192, .f32⟩
  | .local _ .vmem, ⟨50, _⟩ => ⟨S192x2, .f32⟩
  | .local _ .vmem, ⟨51, _⟩ => ⟨S1x2, .f32⟩
  | .local _ .vmem, ⟨52, _⟩ => ⟨S512x2, .f32⟩
  | .local _ .vmem, ⟨53, _⟩ => ⟨S512x2, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_c : Ref sig .tc := ⟨.hbm, 36, rfl⟩
abbrev main_v5 : Ref sig .tc := ⟨.hbm, 37, rfl⟩
abbrev main_v6 : Ref sig .tc := ⟨.hbm, 38, rfl⟩
abbrev main_c_0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_c_1 : Ref sig .tc := ⟨.hbm, 56, rfl⟩
abbrev main_v22 : Ref sig .tc := ⟨.hbm, 57, rfl⟩
abbrev main_v23 : Ref sig .tc := ⟨.hbm, 58, rfl⟩
abbrev main_c_2 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_3 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_4 : Ref sig .tc := ⟨.hbm, 76, rfl⟩
abbrev main_v39 : Ref sig .tc := ⟨.hbm, 77, rfl⟩
abbrev main_v40 : Ref sig .tc := ⟨.hbm, 78, rfl⟩
abbrev main_c_5 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_6 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60_0 : Ref sig .tc := ⟨.hbm, 100, rfl⟩
abbrev main_v60_1 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc4_stg0_0 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc4_sem0_0 : DmaSem sig := 47
abbrev cc4_sem1_0 : DmaSem sig := 48
abbrev cc4_sem2_0 : DmaSem sig := 49
abbrev cc4_sem3_0 : DmaSem sig := 50
abbrev cc4_sem4_0 : DmaSem sig := 51
abbrev cc4_sem5_0 : DmaSem sig := 52
abbrev cc4_sem6_0 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x192 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S192x192 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x192 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S192x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S50000_S50000x1 : S50000.ShapeCasts S50000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x3 : S_.BroadcastsInDim S50000x3 (![] : Fin 0 → Fin S50000x3.rank)
  shapeCasts_S64_S1x64 : S64.ShapeCasts S1x64
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  concatenates_S50000x64_S50000x64_S50000x64_S50000x192_d1 : Shape.Concatenates [S50000x64, S50000x64, S50000x64] S50000x192 1
  inb_S512x192_S512x192_0_0 : ∀ a, (![0, 0] : Fin 2 → Nat) a + S512x192.size a ≤ S512x192.size a
  h_S512x192 : 0 < S512x192.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  shapeCasts_S512x192_S512x192 : S512x192.ShapeCasts S512x192
  shapeCasts_S192_S1x192 : S192.ShapeCasts S1x192
  shapeCasts_S2_S1x2 : S2.ShapeCasts S1x2
  inb_S192x192_S192x192_0_0 : ∀ a, (![0, 0] : Fin 2 → Nat) a + S192x192.size a ≤ S192x192.size a
  h_S192x192 : 0 < S192x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S512x192 : S1x192.Broadcasts S512x192
  inb_S192x2_S192x2_0_0 : ∀ a, (![0, 0] : Fin 2 → Nat) a + S192x2.size a ≤ S192x2.size a
  h_S192x2 : 0 < S192x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  reduces_S512x2_S512 : S512x2.Reduces [1] S512
  shapeCasts_S512_S512x1 : S512.ShapeCasts S512x1
  broadcasts_S512x1_S512x2 : S512x1.Broadcasts S512x2
  gather_S50000x3_S1600000x1_S1600000x3_1_0_n_n_0_1_13_wf : GatherDims.WF S50000x3 S1600000x1 S1600000x3 [1] [0] [] [0] [] 1 ![1, 3]
  scatter_S50000x3_S1600000x1_S1600000x3_1_0_0_1_wf : ScatterDims.WF S50000x3 S1600000x1 S1600000x3 [1] [0] [0] 1
  dot_S5000x3_S3x64_S5000x64_1_0_0_1_n_n_wf : DotDims.WF S5000x3 S3x64 S5000x64 [1] [0] [0] [1] [] []
  dot_S5000x64_S64x64_S5000x64_1_0_0_1_n_n_wf : DotDims.WF S5000x64 S64x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x512_S5000x192_S512x192_0_0_1_1_n_n_wf : DotDims.WF S5000x512 S5000x192 S512x192 [0] [0] [1] [1] [] []
  dot_S512x192_S192x192_S512x192_1_0_0_1_n_n_wf : DotDims.WF S512x192 S192x192 S512x192 [1] [0] [0] [1] [] []
  dot_S512x192_S192x2_S512x2_1_0_0_1_n_n_wf : DotDims.WF S512x192 S192x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S50000x3.size a
  hwx0_1 : ∀ i : grid0.Coords, EltTy.bits .f32 = 32 ∨ (Rect.block (s := S50000x3) S5000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S50000x64.size a
  hwx0_10 : ∀ i : grid0.Coords, EltTy.bits .f32 = 32 ∨ (Rect.block (s := S50000x64) S5000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S50000x64.size a
  hwx1_10 : ∀ i : grid1.Coords, EltTy.bits .f32 = 32 ∨ (Rect.block (s := S50000x64) S5000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x64.size a ≤ S50000x64.size a
  hwx2_10 : ∀ i : grid2.Coords, EltTy.bits .f32 = 32 ∨ (Rect.block (s := S50000x64) S5000x64.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x192.size a ≤ S50000x192.size a
  hwx3_0 : ∀ i : grid3.Coords, EltTy.bits .f32 = 32 ∨ (Rect.block (s := S50000x192) S5000x192.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .i32 = 32 ∨ (Rect.block (s := S50000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x192.size a ≤ S512x192.size a
  hwx3_2 : ∀ i : grid3.Coords, EltTy.bits .f32 = 32 ∨ (Rect.block (s := S512x192) S512x192.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x192.size a ≤ S512x192.size a
  hwx4_0 : ∀ i : grid4.Coords, EltTy.bits .f32 = 32 ∨ (Rect.block (s := S512x192) S512x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x192.size a ≤ S192x192.size a
  hwx4_1 : ∀ i : grid4.Coords, EltTy.bits .f32 = 32 ∨ (Rect.block (s := S192x192) S192x192.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x192.size a ≤ S1x192.size a
  hwx4_2 : ∀ i : grid4.Coords, EltTy.bits .f32 = 32 ∨ (Rect.block (s := S1x192) S1x192.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S192x2.size a ≤ S192x2.size a
  hwx4_3 : ∀ i : grid4.Coords, EltTy.bits .f32 = 32 ∨ (Rect.block (s := S192x2) S192x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x2.size a ≤ S512x2.size a
  hwx4_5 : ∀ i : grid4.Coords, EltTy.bits .f32 = 32 ∨ (Rect.block (s := S512x2) S512x2.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x2.size a ≤ S512x2.size a
  hwx4_6 : ∀ i : grid4.Coords, EltTy.bits .f32 = 32 ∨ (Rect.block (s := S512x2) S512x2.size (cc4_transform_6 i) (hinb4_6 i)).WholeWords (EltTy.packing .f32)

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x512_S5000x192_S512x192_0_0_1_1_n_n : DotDims S5000x512 S5000x192 S512x192 where
  lhsContracting := [0]
  rhsContracting := [0]
  lhsNonContracting := [1]
  rhsNonContracting := [1]
  lhsBatch := []
  rhsBatch := []
  wf := dot_S5000x512_S5000x192_S512x192_0_0_1_1_n_n_wf
def dot_S512x192_S192x192_S512x192_1_0_0_1_n_n : DotDims S512x192 S192x192 S512x192 where
  lhsContracting := [1]
  rhsContracting := [0]
  lhsNonContracting := [0]
  rhsNonContracting := [1]
  lhsBatch := []
  rhsBatch := []
  wf := dot_S512x192_S192x192_S512x192_1_0_0_1_n_n_wf
def dot_S512x192_S192x2_S512x2_1_0_0_1_n_n : DotDims S512x192 S192x2 S512x2 where
  lhsContracting := [1]
  rhsContracting := [0]
  lhsNonContracting := [0]
  rhsNonContracting := [1]
  lhsBatch := []
  rhsBatch := []
  wf := dot_S512x192_S192x2_S512x2_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v21) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v38) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v53) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg23) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v54) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v55) S5000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v56) S5000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S512x192.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S512x192.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg25) S192x192.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x192.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg27) S192x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v60_0) S512x2.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v60_1) S512x2.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x3 : Shape := ⟨2, ![50000, 3]⟩
abbrev S3x64 : Shape := ⟨2, ![3, 64]⟩
abbrev S64 : Shape := ⟨1, ![64]⟩
abbrev S64x64 : Shape := ⟨2, ![64, 64]⟩
abbrev S192x192 : Shape := ⟨2, ![192, 192]⟩
abbrev S192 : Shape := ⟨1, ![192]⟩
abbrev S192x2 : Shape := ⟨2, ![192, 2]⟩
abbrev S2 : Shape := ⟨1, ![2]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S50000x64 : Shape := ⟨2, ![50000, 64]⟩
abbrev S1x64 : Shape := ⟨2, ![1, 64]⟩
abbrev S1600000x64 : Shape := ⟨2, ![1600000, 64]⟩
abbrev S512x64 : Shape := ⟨2, ![512, 64]⟩
abbrev S50000x1 : Shape := ⟨2, ![50000, 1]⟩
abbrev S512x192 : Shape := ⟨2, ![512, 192]⟩
abbrev S1x192 : Shape := ⟨2, ![1, 192]⟩
abbrev S512x2 : Shape := ⟨2, ![512, 2]⟩
abbrev S1x2 : Shape := ⟨2, ![1, 2]⟩
abbrev S512 : Shape := ⟨1, ![512]⟩
abbrev S512x1 : Shape := ⟨2, ![512, 1]⟩

abbrev nBuf : Space → Nat
  | .hbm => 206
  | .vmem => 0
  | .smem => 0
  | _ => 0

abbrev hbmTy0_0 (i : Nat) : BufTy := match i % 128 with
  | 0 => ⟨S50000x3, .f32⟩
  | 1 => ⟨S3x64, .f32⟩
  | 2 => ⟨S64, .f32⟩
  | 3 => ⟨S64, .f32⟩
  | 4 => ⟨S64, .f32⟩
  | 5 => ⟨S64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64, .f32⟩
  | 20 => ⟨S64, .f32⟩
  | 21 => ⟨S64, .f32⟩
  | 22 => ⟨S64, .f32⟩
  | 23 => ⟨S64x64, .f32⟩
  | 24 => ⟨S64, .f32⟩
  | 25 => ⟨S192x192, .f32⟩
  | 26 => ⟨S192, .f32⟩
  | 27 => ⟨S192x2, .f32⟩
  | 28 => ⟨S2, .f32⟩
  | 29 => ⟨S2x1600000, .i32⟩
  | 30 => ⟨S50000, .i32⟩
  | 31 => ⟨S1x1600000, .i32⟩
  | 32 => ⟨S1600000, .i32⟩
  | 33 => ⟨S1x1600000, .i32⟩
  | 34 => ⟨S1600000, .i32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x3, .f32⟩
  | 44 => ⟨S_, .f32⟩
  | 45 => ⟨S50000x3, .f32⟩
  | 46 => ⟨S1600000x1, .i32⟩
  | 47 => ⟨S50000x3, .f32⟩
  | 48 => ⟨S50000x3, .f32⟩
  | 49 => ⟨S50000x64, .f32⟩
  | 50 => ⟨S1x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S_, .f32⟩
  | 57 => ⟨S64, .f32⟩
  | 58 => ⟨S64, .f32⟩
  | 59 => ⟨S64, .f32⟩
  | 60 => ⟨S1x64, .f32⟩
  | 61 => ⟨S50000x64, .f32⟩
  | 62 => ⟨S50000x64, .f32⟩
  | 63 => ⟨S1x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S_, .f32⟩
  | 89 => ⟨S50000x64, .f32⟩
  | 90 => ⟨S1600000x1, .i32⟩
  | 91 => ⟨S50000x64, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S1x64, .f32⟩
  | 98 => ⟨S50000x64, .f32⟩
  | 99 => ⟨S50000x64, .f32⟩
  | 100 => ⟨S_, .f32⟩
  | 101 => ⟨S64, .f32⟩
  | 102 => ⟨S64, .f32⟩
  | 103 => ⟨S64, .f32⟩
  | 104 => ⟨S1x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S50000x3, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S_, .f32⟩
  | 5 => ⟨S50000x64, .f32⟩
  | 6 => ⟨S1600000x1, .i32⟩
  | 7 => ⟨S50000x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | 13 => ⟨S1x64, .f32⟩
  | 14 => ⟨S50000x64, .f32⟩
  | 15 => ⟨S50000x64, .f32⟩
  | 16 => ⟨S_, .f32⟩
  | 17 => ⟨S64, .f32⟩
  | 18 => ⟨S64, .f32⟩
  | 19 => ⟨S64, .f32⟩
  | 20 => ⟨S1x64, .f32⟩
  | 21 => ⟨S50000x64, .f32⟩
  | 22 => ⟨S50000x64, .f32⟩
  | 23 => ⟨S1x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S_, .f32⟩
  | 40 => ⟨S512x64, .f32⟩
  | 41 => ⟨S50000x1, .i32⟩
  | 42 => ⟨S512x64, .f32⟩
  | 43 => ⟨S_, .f32⟩
  | 44 => ⟨S512x64, .f32⟩
  | 45 => ⟨S50000x1, .i32⟩
  | 46 => ⟨S512x64, .f32⟩
  | 47 => ⟨S_, .f32⟩
  | 48 => ⟨S512x64, .f32⟩
  | 49 => ⟨S50000x1, .i32⟩
  | 50 => ⟨S512x64, .f32⟩
  | 51 => ⟨S512x192, .f32⟩
  | 52 => ⟨S512x192, .f32⟩
  | 53 => ⟨S1x192, .f32⟩
  | 54 => ⟨S512x192, .f32⟩
  | 55 => ⟨S512x192, .f32⟩
  | 56 => ⟨S_, .f32⟩
  | 57 => ⟨S512x192, .f32⟩
  | 58 => ⟨S512x192, .f32⟩
  | 59 => ⟨S512x2, .f32⟩
  | 60 => ⟨S1x2, .f32⟩
  | 61 => ⟨S512x2, .f32⟩
  | 62 => ⟨S512x2, .f32⟩
  | 63 => ⟨S_, .f32⟩
  | 64 => ⟨S512, .f32⟩
  | 65 => ⟨S_, .f32⟩
  | 66 => ⟨S512, .f32⟩
  | 67 => ⟨S512, .f32⟩
  | 68 => ⟨S512x1, .f32⟩
  | 69 => ⟨S512x2, .f32⟩
  | 70 => ⟨S512x2, .f32⟩
  | 71 => ⟨S512x2, .f32⟩
  | 72 => ⟨S_, .f32⟩
  | 73 => ⟨S512, .f32⟩
  | 74 => ⟨S512x1, .f32⟩
  | 75 => ⟨S512x1, .f32⟩
  | 76 => ⟨S512x2, .f32⟩
  | 77 => ⟨S512x2, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_call0_cst : Ref sig .tc := ⟨.hbm, 69, rfl⟩
abbrev main_call0_v0 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call1_cst : Ref sig .tc := ⟨.hbm, 76, rfl⟩
abbrev main_call1_v0 : Ref sig .tc := ⟨.hbm, 77, rfl⟩
abbrev main_v39 : Ref sig .tc := ⟨.hbm, 78, rfl⟩
abbrev main_c_2 : Ref sig .tc := ⟨.hbm, 79, rfl⟩
abbrev main_v40 : Ref sig .tc := ⟨.hbm, 80, rfl⟩
abbrev main_v41 : Ref sig .tc := ⟨.hbm, 81, rfl⟩
abbrev main_c_3 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_4 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_5 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call2_cst : Ref sig .tc := ⟨.hbm, 113, rfl⟩
abbrev main_call2_v0 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_call3_cst : Ref sig .tc := ⟨.hbm, 120, rfl⟩
abbrev main_call3_v0 : Ref sig .tc := ⟨.hbm, 121, rfl⟩
abbrev main_v75 : Ref sig .tc := ⟨.hbm, 122, rfl⟩
abbrev main_c_6 : Ref sig .tc := ⟨.hbm, 123, rfl⟩
abbrev main_v76 : Ref sig .tc := ⟨.hbm, 124, rfl⟩
abbrev main_v77 : Ref sig .tc := ⟨.hbm, 125, rfl⟩
abbrev main_c_7 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_8 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_9 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_call4_cst : Ref sig .tc := ⟨.hbm, 157, rfl⟩
abbrev main_call4_v0 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_call5_cst : Ref sig .tc := ⟨.hbm, 164, rfl⟩
abbrev main_call5_v0 : Ref sig .tc := ⟨.hbm, 165, rfl⟩
abbrev main_v111 : Ref sig .tc := ⟨.hbm, 166, rfl⟩
abbrev main_cst_10 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_11 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_12 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_call6_cst : Ref sig .tc := ⟨.hbm, 184, rfl⟩
abbrev main_call6_v0 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_call7_cst : Ref sig .tc := ⟨.hbm, 191, rfl⟩
abbrev main_call7_v0 : Ref sig .tc := ⟨.hbm, 192, rfl⟩
abbrev main_call7_cst_0 : Ref sig .tc := ⟨.hbm, 193, rfl⟩
abbrev main_call7_v1 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_call7_v5 : Ref sig .tc := ⟨.hbm, 198, rfl⟩
abbrev main_call7_v6 : Ref sig .tc := ⟨.hbm, 199, rfl⟩
abbrev main_call7_cst_1 : Ref sig .tc := ⟨.hbm, 200, rfl⟩
abbrev main_call7_v7 : Ref sig .tc := ⟨.hbm, 201, rfl⟩
abbrev main_call7_v8 : Ref sig .tc := ⟨.hbm, 202, rfl⟩
abbrev main_call7_v9 : Ref sig .tc := ⟨.hbm, 203, rfl⟩
abbrev main_call7_v10 : Ref sig .tc := ⟨.hbm, 204, rfl⟩
abbrev main_v131 : Ref sig .tc := ⟨.hbm, 205, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x3 : S_.BroadcastsInDim S50000x3 (![] : Fin 0 → Fin S50000x3.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S_S50000x64 : S_.BroadcastsInDim S50000x64 (![] : Fin 0 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  concatenates_S512x64_S512x64_S512x64_S512x192_d1 : Shape.Concatenates [S512x64, S512x64, S512x64] S512x192 1
  bcast_S192_S1x192_1 : S192.BroadcastsInDim S1x192 (![1] : Fin 1 → Fin S1x192.rank)
  bcast_S1x192_S512x192_0_1 : S1x192.BroadcastsInDim S512x192 (![0, 1] : Fin 2 → Fin S512x192.rank)
  bcast_S_S512x192 : S_.BroadcastsInDim S512x192 (![] : Fin 0 → Fin S512x192.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  reducesTo_S512x2_S512_d1 : S512x2.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x2_0_1 : S512x1.BroadcastsInDim S512x2 (![0, 1] : Fin 2 → Fin S512x2.rank)
  gather_S50000x3_S1600000x1_S1600000x3_1_0_n_n_0_1_13_wf : GatherDims.WF S50000x3 S1600000x1 S1600000x3 [1] [0] [] [0] [] 1 ![1, 3]
  scatter_S50000x3_S1600000x1_S1600000x3_1_0_0_1_wf : ScatterDims.WF S50000x3 S1600000x1 S1600000x3 [1] [0] [0] 1
  dot_S50000x3_S3x64_S50000x64_1_0_0_1_n_n_wf : DotDims.WF S50000x3 S3x64 S50000x64 [1] [0] [0] [1] [] []
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S512x64_S50000x1_S50000x64_1_0_0_1_wf : ScatterDims.WF S512x64 S50000x1 S50000x64 [1] [0] [0] 1
  dot_S512x192_S192x192_S512x192_1_0_0_1_n_n_wf : DotDims.WF S512x192 S192x192 S512x192 [1] [0] [0] [1] [] []
  dot_S512x192_S192x2_S512x2_1_0_0_1_n_n_wf : DotDims.WF S512x192 S192x2 S512x2 [1] [0] [0] [1] [] []

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf
def dot_S50000x3_S3x64_S50000x64_1_0_0_1_n_n : DotDims S50000x3 S3x64 S50000x64 where
  lhsContracting := [1]
  rhsContracting := [0]
  lhsNonContracting := [0]
  rhsNonContracting := [1]
  lhsBatch := []
  rhsBatch := []
  wf := dot_S50000x3_S3x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x192_S192x192_S512x192_1_0_0_1_n_n : DotDims S512x192 S192x192 S512x192 where
  lhsContracting := [1]
  rhsContracting := [0]
  lhsNonContracting := [0]
  rhsNonContracting := [1]
  lhsBatch := []
  rhsBatch := []
  wf := dot_S512x192_S192x192_S512x192_1_0_0_1_n_n_wf
def dot_S512x192_S192x2_S512x2_1_0_0_1_n_n : DotDims S512x192 S192x2 S512x2 where
  lhsContracting := [1]
  rhsContracting := [0]
  lhsNonContracting := [0]
  rhsNonContracting := [1]
  lhsBatch := []
  rhsBatch := []
  wf := dot_S512x192_S192x2_S512x2_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev S50000x3 : Shape := ⟨2, ![50000, 3]⟩
abbrev S3x64 : Shape := ⟨2, ![3, 64]⟩
abbrev S64 : Shape := ⟨1, ![64]⟩
abbrev S64x64 : Shape := ⟨2, ![64, 64]⟩
abbrev S50000x64 : Shape := ⟨2, ![50000, 64]⟩
abbrev S50000 : Shape := ⟨1, ![50000]⟩
abbrev S512x192 : Shape := ⟨2, ![512, 192]⟩
abbrev S192x192 : Shape := ⟨2, ![192, 192]⟩
abbrev S192 : Shape := ⟨1, ![192]⟩
abbrev S192x2 : Shape := ⟨2, ![192, 2]⟩
abbrev S2 : Shape := ⟨1, ![2]⟩
abbrev S512x2 : Shape := ⟨2, ![512, 2]⟩

abbrev eps : EReal := Ideal.ofBits .f32 0x3727C5AC#32

-- Hidden unit k of node n: the first linear map of x + a, normalised by the stored statistics, clamped at zero.
def hidAt {K : Nat} (x a : FVec Ideal ⟨2, ![50000, K]⟩ .f32) (w1 : FVec Ideal ⟨2, ![K, 64]⟩ .f32)
    (b1 g bb mm v : FVec Ideal S64 .f32) (n : Fin 50000) (k : Fin 64) : EReal :=
  max (((((∑ k' : Fin K, (x (ix2 n k') + a (ix2 n k')) * w1 (ix2 k' k)) + b1 (ix1 k)) - mm (ix1 k))
        * Ideal.rsqrt (v (ix1 k) + eps)) * g (ix1 k) + bb (ix1 k)) 0

-- Output feature j of node n: the second linear map of the hidden units, clamped at zero.
def ginAt {K : Nat} (x a : FVec Ideal ⟨2, ![50000, K]⟩ .f32) (w1 : FVec Ideal ⟨2, ![K, 64]⟩ .f32)
    (b1 g bb mm v : FVec Ideal S64 .f32) (w2 : FVec Ideal S64x64 .f32) (b2 : FVec Ideal S64 .f32)
    (n : Fin 50000) (j : Fin 64) : EReal :=
  max ((∑ k : Fin 64, hidAt x a w1 b1 g bb mm v n k * w2 (ix2 k j)) + b2 (ix1 j)) 0

def gin3 (x a : FVec Ideal S50000x3 .f32) (w1 : FVec Ideal S3x64 .f32) (b1 g bb mm v : FVec Ideal S64 .f32)
    (w2 : FVec Ideal S64x64 .f32) (b2 : FVec Ideal S64 .f32) : FVec Ideal S50000x64 .f32 :=
  fun i => ginAt (K := 3) x a w1 b1 g bb mm v w2 b2 (i 0) (i 1)

def gin64 (x a : FVec Ideal S50000x64 .f32) (w1 : FVec Ideal S64x64 .f32) (b1 g bb mm v : FVec Ideal S64 .f32)
    (w2 : FVec Ideal S64x64 .f32) (b2 : FVec Ideal S64 .f32) : FVec Ideal S50000x64 .f32 :=
  fun i => ginAt (K := 64) x a w1 b1 g bb mm v w2 b2 (i 0) (i 1)

-- Column d of node n of the three layer outputs side by side: layer d / 64, feature d mod 64.
def hcat (h1 h2 h3 : FVec Ideal S50000x64 .f32) (n : Fin 50000) (d : Fin 192) : EReal :=
  if h : d.val < 64 then h1 (ix2 n ⟨d.val, h⟩)
  else if h' : d.val < 128 then h2 (ix2 n ⟨d.val - 64, by omega⟩)
  else h3 (ix2 n ⟨d.val - 128, by omega⟩)

theorem hcat_of_lt (h1 h2 h3 : FVec Ideal S50000x64 .f32) (n : Fin 50000) (d : Fin 192) (h : d.val < 64) :
    hcat h1 h2 h3 n d = h1 (ix2 n ⟨d.val, h⟩) := dif_pos h

theorem hcat_of_mid (h1 h2 h3 : FVec Ideal S50000x64 .f32) (n : Fin 50000) (d : Fin 192) (h : 64 ≤ d.val)
    (h' : d.val < 128) : hcat h1 h2 h3 n d = h2 (ix2 n ⟨d.val - 64, by omega⟩) := by
  unfold hcat; rw [dif_neg (by omega), dif_pos h']

theorem hcat_of_ge (h1 h2 h3 : FVec Ideal S50000x64 .f32) (n : Fin 50000) (d : Fin 192) (h : 128 ≤ d.val) :
    hcat h1 h2 h3 n d = h3 (ix2 n ⟨d.val - 128, by omega⟩) := by
  unfold hcat; rw [dif_neg (by omega), dif_neg (by omega)]

-- Pooled feature d of graph g: the sum over the nodes whose graph id, read as a signed word, is g.
def poolAt (h1 h2 h3 : FVec Ideal S50000x64 .f32) (batch : IVec S50000 32) (g : Fin 512) (d : Fin 192) : EReal :=
  ∑ n : Fin 50000, if (batch (ix1 n)).toInt = (g.val : Int) then hcat h1 h2 h3 n d else 0

def pool (h1 h2 h3 : FVec Ideal S50000x64 .f32) (batch : IVec S50000 32) : FVec Ideal S512x192 .f32 :=
  fun i => poolAt h1 h2 h3 batch (i 0) (i 1)

theorem pool_apply (h1 h2 h3 : FVec Ideal S50000x64 .f32) (batch : IVec S50000 32) (g : Fin 512) (d : Fin 192) :
    pool h1 h2 h3 batch (ix2 g d) = poolAt h1 h2 h3 batch g d := rfl

def readHidAt (p : FVec Ideal S512x192 .f32) (w1 : FVec Ideal S192x192 .f32) (b1 : FVec Ideal S192 .f32)
    (g : Fin 512) (k : Fin 192) : EReal :=
  max ((∑ k' : Fin 192, p (ix2 g k') * w1 (ix2 k' k)) + b1 (ix1 k)) 0

-- The logit of class c of graph g: the second linear map of the readout's hidden units.
def logitsAt (p : FVec Ideal S512x192 .f32) (w1 : FVec Ideal S192x192 .f32) (b1 : FVec Ideal S192 .f32)
    (w2 : FVec Ideal S192x2 .f32) (b2 : FVec Ideal S2 .f32) (g : Fin 512) (c : Fin 2) : EReal :=
  (∑ k : Fin 192, readHidAt p w1 b1 g k * w2 (ix2 k c)) + b2 (ix1 c)

def logits (p : FVec Ideal S512x192 .f32) (w1 : FVec Ideal S192x192 .f32) (b1 : FVec Ideal S192 .f32)
    (w2 : FVec Ideal S192x2 .f32) (b2 : FVec Ideal S2 .f32) : FVec Ideal S512x2 .f32 :=
  fun i => logitsAt p w1 b1 w2 b2 (i 0) (i 1)

theorem logits_apply (p : FVec Ideal S512x192 .f32) (w1 : FVec Ideal S192x192 .f32) (b1 : FVec Ideal S192 .f32)
    (w2 : FVec Ideal S192x2 .f32) (b2 : FVec Ideal S2 .f32) (g : Fin 512) (c : Fin 2) :
    logits p w1 b1 w2 b2 (ix2 g c) = logitsAt p w1 b1 w2 b2 g c := rfl

def rowMax (l : FVec Ideal S512x2 .f32) (g : Fin 512) : EReal := max (l (ix2 g 0)) (l (ix2 g 1))

-- The log-softmax of row g at class c, the row shifted by its maximum first.
def logsmAt (l : FVec Ideal S512x2 .f32) (g : Fin 512) (c : Fin 2) : EReal :=
  (l (ix2 g c) - rowMax l g) - Ideal.log (∑ c' : Fin 2, Ideal.exp (l (ix2 g c') - rowMax l g))

def logsm (l : FVec Ideal S512x2 .f32) : FVec Ideal S512x2 .f32 :=
  fun i => logsmAt l (i 0) (i 1)

theorem logsm_apply (l : FVec Ideal S512x2 .f32) (g : Fin 512) (c : Fin 2) :
    logsm l (ix2 g c) = logsmAt l g c := rfl

end Cert.Spec

end
-- ==== Proof.K.R0.lean ====
import proofs.«421766_j4561255269295_1_alg».proof.Proof.Gen.Kernel.Launch
import proofs.«421766_j4561255269295_1_alg».proof.Proof.Gen.Kernel.Skeleton
import proofs.«421766_j4561255269295_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x3 := Rect.unit (s := S5000x3) ![0, 0] S5000x3.size inb_S5000x3_S5000x3_0_0
abbrev r0_1 : Rect S3x64 := Rect.unit (s := S3x64) ![0, 0] S3x64.size inb_S3x64_S3x64_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S5000x64 := Rect.unit (s := S5000x64) ![0, 0] S5000x64.size inb_S5000x64_S5000x64_0_0

def out0_10 (x0 x1 : Vec F S5000x3 .f32) (x2 : Vec F S3x64 .f32) (x3 x4 x5 x6 x7 : Vec F S1x64 .f32) (x8 : Vec F S64x64 .f32) (x9 : Vec F S1x64 .f32) : Vec F S5000x64 .f32 :=
  View.canon [⟨r0_4, k0_pay1 (k0_pay2 (View.ld x0 r0_0) (View.ld x1 r0_0) (View.ld x2 r0_1) (View.ld x3 r0_2) (View.ld x7 r0_2) (View.ld x6 r0_2) (View.ld x4 r0_2) (View.ld x5 r0_2) (View.ld x8 r0_3)) (View.ld x9 r0_2)⟩]

theorem cover0_10 (p0 : Vec F S5000x64 .f32) (y : S5000x64.Idx) :
    ∃ pc ∈ ([⟨r0_4, p0⟩] : List (View.Piece (Elt F) S5000x64 .f32)), y ∈ pc.1.set :=
  View.cover_of_tiled [⟨r0_4, p0⟩] S5000x64.size (by rfl) y

set_option maxHeartbeats 1000000 in
theorem sound_kernel0 (c : Dev nD) (E : Set ℕ) (i : grid0.Coords) (arg1 : Memref sig .tc .vmem S5000x3 .f32) (harg1 : arg1.IsWhole) (arg2 : Memref sig .tc .vmem S5000x3 .f32) (harg2 : arg2.IsWhole) (arg3 : Memref sig .tc .vmem S3x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole)
    (x0 x1 : Vec F S5000x3 .f32) (x2 : Vec F S3x64 .f32) (x3 x4 x5 x6 x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover0_10 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem Phi_eq0 (c : Dev nD) (i) : (dat0 V c).Φ i = Pipeline.ΦA spec0 c := by
  dsimp only [dat0]

theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_in (c : Dev nD) : ∀ (w : Fin cfg0.W), (cfg0.win w).isOut = false → ∀ (t : Fin cfg0.N) (d), (dat0 V c).before w t d = (dat0 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d | ⟨9, _⟩, _, t, d =>
    Dat.before_in_eq_fetched (dat0 V c) _ rfl (fun _ => rfl) (fun _ _ _ => rfl) (fun _ => rfl) t d
  | ⟨10, _⟩, h, _, _ => by cases h

theorem body_obligation0 (c : Dev nD) : BodyObligation (dat0 (F := F) V c) (defs₀ (F := F)) Variants.none () Set.univ := fun t => by
  rw [bigSep_W0, bigSep_W0]
  show _ ⊢ wp _ _ _ (bodyAt0 t) _
  simp only [before0_in V c 0 rfl, before0_in V c 1 rfl, before0_in V c 2 rfl, before0_in V c 3 rfl, before0_in V c 4 rfl, before0_in V c 5 rfl, before0_in V c 6 rfl, before0_in V c 7 rfl, before0_in V c 8 rfl, before0_in V c 9 rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ ((dat0 V c).after 0 t) ((dat0 V c).after 1 t) ((dat0 V c).after 2 t) ((dat0 V c).after 3 t) ((dat0 V c).after 4 t) ((dat0 V c).after 5 t) ((dat0 V c).after 6 t) ((dat0 V c).after 7 t) ((dat0 V c).after 8 t) ((dat0 V c).after 9 t) _)
  iframe
  isplitl [H10]; · iexists _; iexact H10
  iintro H
  dsimp only [dat0, Dat.owesAt, Dat.bound]
  iframe

end Region0

end Cert.Kernel.Hand

end
-- ==== Proof.K.R1.lean ====
import proofs.«421766_j4561255269295_1_alg».proof.Proof.Gen.Kernel.Launch
import proofs.«421766_j4561255269295_1_alg».proof.Proof.Gen.Kernel.Skeleton
import proofs.«421766_j4561255269295_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

def out1_10 (x0 x1 : Vec F S5000x64 .f32) (x2 : Vec F S64x64 .f32) (x3 x4 x5 x6 x7 : Vec F S1x64 .f32) (x8 : Vec F S64x64 .f32) (x9 : Vec F S1x64 .f32) : Vec F S5000x64 .f32 :=
  View.canon [⟨r1_0, k1_pay1 (k1_pay2 (View.ld x0 r1_0) (View.ld x1 r1_0) (View.ld x2 r1_1) (View.ld x3 r1_2) (View.ld x7 r1_2) (View.ld x6 r1_2) (View.ld x4 r1_2) (View.ld x5 r1_2)) (k1_pay3 (View.ld x8 r1_1)) (constant S5000x64 .f32 0x00000000#32) (View.ld x9 r1_2)⟩]

theorem cover1_10 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 1000000 in
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole)
    (x0 x1 : Vec F S5000x64 .f32) (x2 : Vec F S64x64 .f32) (x3 x4 x5 x6 x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9 arg10 harg10 arg11 harg11) K := by
  simp only [cc1__gin_mlp_kernel_eq_skeleton]; unfold cc1__gin_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover1_10 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem Phi_eq1 (c : Dev nD) (i) : (dat1 V c).Φ i = Pipeline.ΦA spec1 c := by
  dsimp only [dat1]

theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_in (c : Dev nD) : ∀ (w : Fin cfg1.W), (cfg1.win w).isOut = false → ∀ (t : Fin cfg1.N) (d), (dat1 V c).before w t d = (dat1 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d | ⟨9, _⟩, _, t, d =>
    Dat.before_in_eq_fetched (dat1 V c) _ rfl (fun _ => rfl) (fun _ _ _ => rfl) (fun _ => rfl) t d
  | ⟨10, _⟩, h, _, _ => by cases h

theorem body_obligation1 (c : Dev nD) : BodyObligation (dat1 (F := F) V c) (defs₀ (F := F)) Variants.none () Set.univ := fun t => by
  rw [bigSep_W1, bigSep_W1]
  show _ ⊢ wp _ _ _ (bodyAt1 t) _
  simp only [before1_in V c 0 rfl, before1_in V c 1 rfl, before1_in V c 2 rfl, before1_in V c 3 rfl, before1_in V c 4 rfl, before1_in V c 5 rfl, before1_in V c 6 rfl, before1_in V c 7 rfl, before1_in V c 8 rfl, before1_in V c 9 rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ ((dat1 V c).after 0 t) ((dat1 V c).after 1 t) ((dat1 V c).after 2 t) ((dat1 V c).after 3 t) ((dat1 V c).after 4 t) ((dat1 V c).after 5 t) ((dat1 V c).after 6 t) ((dat1 V c).after 7 t) ((dat1 V c).after 8 t) ((dat1 V c).after 9 t) _)
  iframe
  isplitl [H10]; · iexists _; iexact H10
  iintro H
  dsimp only [dat1, Dat.owesAt, Dat.bound]
  iframe

end Region1

end Cert.Kernel.Hand

end
-- ==== Proof.K.R2.lean ====
import proofs.«421766_j4561255269295_1_alg».proof.Proof.Gen.Kernel.Launch
import proofs.«421766_j4561255269295_1_alg».proof.Proof.Gen.Kernel.Skeleton
import proofs.«421766_j4561255269295_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

def out2_10 (x0 x1 : Vec F S5000x64 .f32) (x2 : Vec F S64x64 .f32) (x3 x4 x5 x6 x7 : Vec F S1x64 .f32) (x8 : Vec F S64x64 .f32) (x9 : Vec F S1x64 .f32) : Vec F S5000x64 .f32 :=
  View.canon [⟨r2_0, k2_pay1 (k2_pay2 (View.ld x0 r2_0) (View.ld x1 r2_0) (View.ld x2 r2_1) (View.ld x3 r2_2) (View.ld x7 r2_2) (View.ld x6 r2_2) (View.ld x4 r2_2) (View.ld x5 r2_2)) (k2_pay3 (View.ld x8 r2_1)) (constant S5000x64 .f32 0x00000000#32) (View.ld x9 r2_2)⟩]

theorem cover2_10 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole)
    (x0 x1 : Vec F S5000x64 .f32) (x2 : Vec F S64x64 .f32) (x3 x4 x5 x6 x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover2_10 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem Phi_eq2 (c : Dev nD) (i) : (dat2 V c).Φ i = Pipeline.ΦA spec2 c := by
  dsimp only [dat2]

theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_in (c : Dev nD) : ∀ (w : Fin cfg2.W), (cfg2.win w).isOut = false → ∀ (t : Fin cfg2.N) (d), (dat2 V c).before w t d = (dat2 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d | ⟨9, _⟩, _, t, d =>
    Dat.before_in_eq_fetched (dat2 V c) _ rfl (fun _ => rfl) (fun _ _ _ => rfl) (fun _ => rfl) t d
  | ⟨10, _⟩, h, _, _ => by cases h

theorem body_obligation2 (c : Dev nD) : BodyObligation (dat2 (F := F) V c) (defs₀ (F := F)) Variants.none () Set.univ := fun t => by
  rw [bigSep_W2, bigSep_W2]
  show _ ⊢ wp _ _ _ (bodyAt2 t) _
  simp only [before2_in V c 0 rfl, before2_in V c 1 rfl, before2_in V c 2 rfl, before2_in V c 3 rfl, before2_in V c 4 rfl, before2_in V c 5 rfl, before2_in V c 6 rfl, before2_in V c 7 rfl, before2_in V c 8 rfl, before2_in V c 9 rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ ((dat2 V c).after 0 t) ((dat2 V c).after 1 t) ((dat2 V c).after 2 t) ((dat2 V c).after 3 t) ((dat2 V c).after 4 t) ((dat2 V c).after 5 t) ((dat2 V c).after 6 t) ((dat2 V c).after 7 t) ((dat2 V c).after 8 t) ((dat2 V c).after 9 t) _)
  iframe
  isplitl [H10]; · iexists _; iexact H10
  iintro H
  dsimp only [dat2, Dat.owesAt, Dat.bound]
  iframe

end Region2

end Cert.Kernel.Hand

end
-- ==== Proof.K.R3.lean ====
import proofs.«421766_j4561255269295_1_alg».proof.Proof.Gen.Kernel.Launch
import proofs.«421766_j4561255269295_1_alg».proof.Proof.Gen.Kernel.Skeleton
import proofs.«421766_j4561255269295_1_alg».proof.Proof.Gen.Kernel.Points
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem N3_pos : 0 < cfg3.N := by rw [show cfg3.N = 10 from N_3]; decide

def acc3 (c : Dev nD) : (n : ℕ) → Vec F S512x192 .f32
  | 0 => k3_pay2 (iblk3 V c 1 ⟨0, N3_pos⟩) (iblk3 V c 0 ⟨0, N3_pos⟩) (k3_pay1 (F := F))
  | n + 1 =>
    if h : n + 1 < cfg3.N then k3_pay2 (iblk3 V c 1 ⟨n + 1, h⟩) (iblk3 V c 0 ⟨n + 1, h⟩) (acc3 c n)
    else acc3 c n

theorem acc3_zero (c : Dev nD) :
    acc3 V c 0 = k3_pay2 (iblk3 V c 1 ⟨0, N3_pos⟩) (iblk3 V c 0 ⟨0, N3_pos⟩) (k3_pay1 (F := F)) := rfl

theorem acc3_succ (c : Dev nD) (n : ℕ) (h : n + 1 < cfg3.N) :
    acc3 V c (n + 1) = k3_pay2 (iblk3 V c 1 ⟨n + 1, h⟩) (iblk3 V c 0 ⟨n + 1, h⟩) (acc3 V c n) := by
  rw [acc3, dif_pos h]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = acc3 V c t.val := rfl

theorem Phi_eq3 (c : Dev nD) (i : Fin (cfg3.N + 1)) : (dat3 V c).Φ i = Pipeline.ΦA spec3 c := rfl

theorem zeros3 : (![0, 0] : Fin 2 → ℕ) = fun _ => 0 := by funext a; fin_cases a <;> rfl

abbrev cond3 (i : grid3.Coords) : Prop :=
  (Scalar.cmpi .ne (Scalar.extui (Scalar.cmpi .eq (BitVec.ofNat 32 (i 0).val) 0#32)) 0#32) = 1#1

theorem hcond3 : ∀ t : Fin cfg3.N, cond3 (grid3.coords t) ↔ t.val = 0 :=
  (by decide +kernel : ∀ t : Fin grid3.N, cond3 (grid3.coords t) ↔ t.val = 0)

set_option maxHeartbeats 1000000 in
/-- One step of the segment sum: the tile's one-hot product added to the block, which restarts from zero where the condition holds. -/
theorem sound_kernel3 {c : Dev nD} {E : Set ℕ} {i : grid3.Coords}
    {arg1 : Memref sig .tc .vmem S5000x192 .f32} {arg2 : Memref sig .tc .vmem S5000x1 .i32} {arg3 : Memref sig .tc .vmem S512x192 .f32}
    {harg1 : arg1.IsWhole} {harg2 : arg2.IsWhole} {harg3 : arg3.IsWhole} {K : PUnit → sProp 𝕄}
    (x0 : Vec F S5000x192 .f32) (x1 : Vec F S5000x1 .i32) (xo : Vec F S512x192 .f32) :
    iprop(owns (c : Thread nD τ) arg1 fullShare x0 ∗ owns (c : Thread nD τ) arg2 fullShare x1
        ∗ owns (c : Thread nD τ) arg3 fullShare xo
        ∗ (iprop(owns (c : Thread nD τ) arg1 fullShare x0 ∗ owns (c : Thread nD τ) arg2 fullShare x1
            ∗ owns (c : Thread nD τ) arg3 fullShare (k3_pay2 x1 x0 (if cond3 i then k3_pay1 (F := F) else xo))) -∗ K ⟨⟩))
      ⊢ wp frame (wpE (defs₀ (F := F)) Variants.none c none) E (cc3__pool_kernel i arg1 harg1 arg2 harg2 arg3 harg3) K := by
  by_cases hc : cond3 i <;> [rw [if_pos hc]; rw [if_neg hc]] <;> (
    simp only [cc3__pool_kernel_eq_skeleton]; unfold cc3__pool_kernel_skel
    unfold owns
    iintro ⟨⟨%f0, %hf0, H0⟩, ⟨%f1, %hf1, H1⟩, ⟨%f2, %hf2, H2⟩, Hk⟩
    subst hf0 hf1 hf2
    sl_exec (disch := first | exact hc)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    sl_unfold_run_names
    refine (View.read_writes_eq_canon _ _ _ (fun y => ⟨_, List.mem_cons.mpr (Or.inl rfl), View.mem_set_unit_zero zeros3 inb_S512x192_S512x192_0_0 y⟩)).trans ?_
    refine (View.canon_cons_unit_zero zeros3 _ _ _).trans ?_
    congr 1 <;> first | exact View.ld_unit_zero zeros3 _ _ | exact View.readCov_unit_zero _ zeros3 _ _)

theorem before3 (c : Dev nD) : ∀ (w : Fin cfg3.W), (cfg3.win w).isOut = false → ∀ (t : Fin cfg3.N) (d), (dat3 V c).before w t d = (dat3 V c).after w t
  | ⟨0, _⟩, _, t, d | ⟨1, _⟩, _, t, d =>
    Dat.before_in_eq_fetched (dat3 V c) _ rfl (fun _ => rfl) (fun _ _ _ => rfl) (fun _ => rfl) t d
  | ⟨2, _⟩, h, _, _ => by cases h

theorem acc3_step (c : Dev nD) (t : Fin cfg3.N) (d) :
    (dat3 V c).after 2 t = k3_pay2 ((dat3 V c).after 1 t) ((dat3 V c).after 0 t)
      (if cond3 (grid3.coords t) then k3_pay1 (F := F) else (dat3 V c).before 2 t d) := by
  have hN : t.val < 10 := lt_of_lt_of_eq t.isLt (show cfg3.N = 10 from N_3)
  obtain ⟨n, hn⟩ := t
  cases n with
  | zero => rw [if_pos ((hcond3 ⟨0, hn⟩).mpr rfl)]; exact acc3_zero V c
  | succ n =>
    rw [if_neg fun h => absurd ((hcond3 ⟨n + 1, hn⟩).mp h) n.succ_ne_zero,
      Dat.before_out_kept _ 2 rfl _ n.succ_ne_zero
        (Bool.eq_false_iff.mpr fun h => by have := (flush3_2 _).mp h; dsimp only at this hN; omega) (fun _ => rfl) (fun _ _ => rfl)]
    exact acc3_succ V c n hn

theorem body_obligation3 (c : Dev nD) : BodyObligation (dat3 (F := F) V c) (defs₀ (F := F)) Variants.none () Set.univ := fun t => by
  rw [bigSep_W3, bigSep_W3]
  show _ ⊢ wp _ _ _ (bodyAt3 t) _
  simp only [before3 V c 0 rfl, before3 V c 1 rfl]
  iintro ⟨HΦ, Ho, ⟨%d0, H0⟩, ⟨%d1, H1⟩, ⟨%d2, H2⟩⟩
  rw [acc3_step V c t d2]
  iapply (sound_kernel3 ((dat3 V c).after 0 t) ((dat3 V c).after 1 t) ((dat3 V c).before 2 t d2))
  iframe
  iintro H
  dsimp only [dat3, Dat.owesAt, Dat.bound]
  iframe

end Region3

end Cert.Kernel.Hand

end
-- ==== Proof.K.R4.lean ====
import proofs.«421766_j4561255269295_1_alg».proof.Proof.Gen.Kernel.Launch
import proofs.«421766_j4561255269295_1_alg».proof.Proof.Gen.Kernel.Skeleton
import proofs.«421766_j4561255269295_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_pooled : Rect S512x192 := Rect.unit (s := S512x192) ![0, 0] S512x192.size inb_S512x192_S512x192_0_0
abbrev r4_w1 : Rect S192x192 := Rect.unit (s := S192x192) ![0, 0] S192x192.size inb_S192x192_S192x192_0_0
abbrev r4_b1 : Rect S1x192 := Rect.unit (s := S1x192) ![0, 0] S1x192.size inb_S1x192_S1x192_0_0
abbrev r4_w2 : Rect S192x2 := Rect.unit (s := S192x2) ![0, 0] S192x2.size inb_S192x2_S192x2_0_0
abbrev r4_b2 : Rect S1x2 := Rect.unit (s := S1x2) ![0, 0] S1x2.size inb_S1x2_S1x2_0_0
abbrev r4_out : Rect S512x2 := Rect.unit (s := S512x2) ![0, 0] S512x2.size inb_S512x2_S512x2_0_0

def out4_5 (x0 : Vec F S512x192 .f32) (x1 : Vec F S192x192 .f32) (x2 : Vec F S1x192 .f32) (x3 : Vec F S192x2 .f32) (x4 : Vec F S1x2 .f32) : Vec F S512x2 .f32 :=
  View.canon [⟨r4_out, k4_pay1 (View.ld x0 r4_pooled) (View.ld x1 r4_w1) (View.ld x2 r4_b1) (View.ld x3 r4_w2) (View.ld x4 r4_b2)⟩]

def out4_6 (x0 : Vec F S512x192 .f32) (x1 : Vec F S192x192 .f32) (x2 : Vec F S1x192 .f32) (x3 : Vec F S192x2 .f32) (x4 : Vec F S1x2 .f32) : Vec F S512x2 .f32 :=
  View.canon [⟨r4_out, k4_pay2 (View.ld x0 r4_pooled) (View.ld x1 r4_w1) (View.ld x2 r4_b1) (View.ld x3 r4_w2) (View.ld x4 r4_b2)⟩]

theorem sound_kernel4 {c : Dev nD} {E : Set ℕ} {i : grid4.Coords}
    {arg1 : Memref sig .tc .vmem S512x192 .f32} {arg2 : Memref sig .tc .vmem S192x192 .f32} {arg3 : Memref sig .tc .vmem S1x192 .f32}
    {arg4 : Memref sig .tc .vmem S192x2 .f32} {arg5 : Memref sig .tc .vmem S1x2 .f32} {arg6 arg7 : Memref sig .tc .vmem S512x2 .f32}
    {harg1 : arg1.IsWhole} {harg2 : arg2.IsWhole} {harg3 : arg3.IsWhole} {harg4 : arg4.IsWhole} {harg5 : arg5.IsWhole}
    {harg6 : arg6.IsWhole} {harg7 : arg7.IsWhole} {K : PUnit → sProp 𝕄}
    (x0 : Vec F S512x192 .f32) (x1 : Vec F S192x192 .f32) (x2 : Vec F S1x192 .f32) (x3 : Vec F S192x2 .f32) (x4 : Vec F S1x2 .f32)
    (d5 d6 : Vec F S512x2 .f32) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare d5 ∗ owns (c : Thread nD τ) arg7 fullShare d6
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4) ∗ owns (c : Thread nD τ) arg7 fullShare (out4_6 x0 x1 x2 x3 x4)) -∗ K ⟨⟩))
      ⊢ wp frame (wpE (defs₀ (F := F)) Variants.none c none) E
          (cc4__readout_kernel i arg1 harg1 arg2 harg2 arg3 harg3 arg4 harg4 arg5 harg5 arg6 harg6 arg7 harg7) K := by
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, -, H6⟩, Hk⟩
  subst hf0 hf1 hf2 hf3 hf4
  sl_unfold [cc4__readout_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5] <;> (
    iexists _; isplitr
    swap; · first | iexact H5 | iexact H6
    ipureintro
    exact View.read_writes_eq_canon _ _ _ (View.cover_of_tiled _ S512x2.size (by rfl)))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => out4_6 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem Phi_eq4 (c : Dev nD) (i : Fin (cfg4.N + 1)) : (dat4 V c).Φ i = Pipeline.ΦA spec4 c := rfl

theorem after4_5 (c : Dev nD) (t : Fin cfg4.N) : (dat4 V c).after 5 t = out4_5 (iblk4 V c 0 t) (iblk4 V c 1 t) (iblk4 V c 2 t) (iblk4 V c 3 t) (iblk4 V c 4 t) := rfl
theorem after4_6 (c : Dev nD) (t : Fin cfg4.N) : (dat4 V c).after 6 t = out4_6 (iblk4 V c 0 t) (iblk4 V c 1 t) (iblk4 V c 2 t) (iblk4 V c 3 t) (iblk4 V c 4 t) := rfl

theorem before4 (c : Dev nD) : ∀ (w : Fin cfg4.W), (cfg4.win w).isOut = false → ∀ (t : Fin cfg4.N) (d), (dat4 V c).before w t d = (dat4 V c).after w t
  | ⟨0, _⟩, _, t, d | ⟨1, _⟩, _, t, d | ⟨2, _⟩, _, t, d | ⟨3, _⟩, _, t, d | ⟨4, _⟩, _, t, d =>
    Dat.before_in_eq_fetched (dat4 V c) _ rfl (fun _ => rfl) (fun _ _ _ => rfl) (fun _ => rfl) t d
  | ⟨5, _⟩, h, _, _ | ⟨6, _⟩, h, _, _ => by cases h

theorem body_obligation4 (c : Dev nD) : BodyObligation (dat4 (F := F) V c) (defs₀ (F := F)) Variants.none () Set.univ := fun t => by
  rw [bigSep_W4, bigSep_W4]
  show _ ⊢ wp _ _ _ (bodyAt4 t) _
  simp only [before4 V c 0 rfl, before4 V c 1 rfl, before4 V c 2 rfl, before4 V c 3 rfl, before4 V c 4 rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 ((dat4 V c).after 0 t) ((dat4 V c).after 1 t) ((dat4 V c).after 2 t) ((dat4 V c).after 3 t) ((dat4 V c).after 4 t)
    ((dat4 V c).before 5 t d5) ((dat4 V c).before 6 t d6))
  iframe
  iintro H
  dsimp only [dat4, Dat.owesAt, Dat.bound]
  iframe

end Region4

end Cert.Kernel.Hand

end
-- ==== Proof.K.Frame.lean ====
import proofs.«421766_j4561255269295_1_alg».proof.Proof.Gen.Kernel.Skeleton
import proofs.«421766_j4561255269295_1_alg».proof.Proof.Gen.Kernel.Launch
import proofs.«421766_j4561255269295_1_alg».proof.Proof.Gen.Kernel.Points
import proofs.«421766_j4561255269295_1_alg».proof.Proof.Gen.Kernel.Regions
import proofs.«421766_j4561255269295_1_alg».proof.Proof.K.R0
import proofs.«421766_j4561255269295_1_alg».proof.Proof.K.R1
import proofs.«421766_j4561255269295_1_alg».proof.Proof.K.R2
import proofs.«421766_j4561255269295_1_alg».proof.Proof.K.R3
import proofs.«421766_j4561255269295_1_alg».proof.Proof.K.R4
import proofs.«421766_j4561255269295_1_alg».proof.Proof.K.FrameCondV
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev VV1 (c : Dev nD) : Valuation τ sig (Elt F) := Gen.V1 m c
def o2 (c : Dev nD) : Buf (Elt F) ((c : Thread nD τ).loc main_v21) := (dat0 (fun c b => VV1 m c b) c).arrAt 10 cfg0.N
def VV2 (c : Dev nD) : Valuation τ sig (Elt F) := Function.update (VV1 m c) main_v21 (o2 m c)
def VV3 (c : Dev nD) : Valuation τ sig (Elt F) := StableHlo.after hostOps1 (VV2 m c)
def o4 (c : Dev nD) : Buf (Elt F) ((c : Thread nD τ).loc main_v38) := (dat1 (fun c b => VV3 m c b) c).arrAt 10 cfg1.N
def VV4 (c : Dev nD) : Valuation τ sig (Elt F) := Function.update (VV3 m c) main_v38 (o4 m c)
def VV5 (c : Dev nD) : Valuation τ sig (Elt F) := StableHlo.after hostOps2 (VV4 m c)
def o6 (c : Dev nD) : Buf (Elt F) ((c : Thread nD τ).loc main_v55) := (dat2 (fun c b => VV5 m c b) c).arrAt 10 cfg2.N
def VV6 (c : Dev nD) : Valuation τ sig (Elt F) := Function.update (VV5 m c) main_v55 (o6 m c)
def VV7 (c : Dev nD) : Valuation τ sig (Elt F) := StableHlo.after hostOps3 (VV6 m c)
def o8 (c : Dev nD) : Buf (Elt F) ((c : Thread nD τ).loc main_v57) := (dat3 (fun c b => VV7 m c b) c).arrAt 2 cfg3.N
def VV8 (c : Dev nD) : Valuation τ sig (Elt F) := Function.update (VV7 m c) main_v57 (o8 m c)
def VV9 (c : Dev nD) : Valuation τ sig (Elt F) := StableHlo.after hostOps4 (VV8 m c)
def o10a (c : Dev nD) : Buf (Elt F) ((c : Thread nD τ).loc main_v60_0) := (dat4 (fun c b => VV9 m c b) c).arrAt 5 cfg4.N
def o10b (c : Dev nD) : Buf (Elt F) ((c : Thread nD τ).loc main_v60_1) := (dat4 (fun c b => VV9 m c b) c).arrAt 6 cfg4.N
def VV10 (c : Dev nD) : Valuation τ sig (Elt F) := Function.update (Function.update (VV9 m c) main_v60_0 (o10a m c)) main_v60_1 (o10b m c)

def outsH : Gen.Outs (F := F)
  | 2, r, c => Function.update (Gen.V0 m c) main_v21 (o2 m c) r
  | 4, r, c => Function.update (Gen.V0 m c) main_v38 (o4 m c) r
  | 6, r, c => Function.update (Gen.V0 m c) main_v55 (o6 m c) r
  | 8, r, c => Function.update (Gen.V0 m c) main_v57 (o8 m c) r
  | 10, r, c => Function.update (Function.update (Gen.V0 m c) main_v60_0 (o10a m c)) main_v60_1 (o10b m c) r
  | _, r, c => m ((c : Thread nD τ).loc r)

theorem outsH_2 (c : Dev nD) : outsH m 2 main_v21 c = o2 m c := by
  simp only [outsH, Function.update_self]
theorem outsH_4 (c : Dev nD) : outsH m 4 main_v38 c = o4 m c := by
  simp only [outsH, Function.update_self]
theorem outsH_6 (c : Dev nD) : outsH m 6 main_v55 c = o6 m c := by
  simp only [outsH, Function.update_self]
theorem outsH_8 (c : Dev nD) : outsH m 8 main_v57 c = o8 m c := by
  simp only [outsH, Function.update_self]
theorem outsH_10a (c : Dev nD) : outsH m 10 main_v60_0 c = o10a m c := by
  simp only [outsH, Function.update_of_ne (StableHlo.devRef_ne_of_ne (by decide) : (Proc.devRef .tc main_v60_0 : DevRef τ sig) ≠ Proc.devRef .tc main_v60_1), Function.update_self]
theorem outsH_10b (c : Dev nD) : outsH m 10 main_v60_1 c = o10b m c := by
  simp only [outsH, Function.update_self]

theorem V2_eq (c : Dev nD) : Gen.V2 m (outsH m) c = VV2 m c := by
  show Function.update (Gen.V1 m c) main_v21 (outsH m 2 main_v21 c) = _
  rw [outsH_2]; rfl
theorem V3_eq (c : Dev nD) : Gen.V3 m (outsH m) c = VV3 m c := congrArg (StableHlo.after hostOps1) (V2_eq m c)
theorem V4_eq (c : Dev nD) : Gen.V4 m (outsH m) c = VV4 m c := by
  show Function.update (Gen.V3 m (outsH m) c) main_v38 (outsH m 4 main_v38 c) = _
  rw [outsH_4, V3_eq]; rfl
theorem V5_eq (c : Dev nD) : Gen.V5 m (outsH m) c = VV5 m c := congrArg (StableHlo.after hostOps2) (V4_eq m c)
theorem V6_eq (c : Dev nD) : Gen.V6 m (outsH m) c = VV6 m c := by
  show Function.update (Gen.V5 m (outsH m) c) main_v55 (outsH m 6 main_v55 c) = _
  rw [outsH_6, V5_eq]; rfl
theorem V7_eq (c : Dev nD) : Gen.V7 m (outsH m) c = VV7 m c := congrArg (StableHlo.after hostOps3) (V6_eq m c)
theorem V8_eq (c : Dev nD) : Gen.V8 m (outsH m) c = VV8 m c := by
  show Function.update (Gen.V7 m (outsH m) c) main_v57 (outsH m 8 main_v57 c) = _
  rw [outsH_8, V7_eq]; rfl
theorem V9_eq (c : Dev nD) : Gen.V9 m (outsH m) c = VV9 m c := congrArg (StableHlo.after hostOps4) (V8_eq m c)
theorem V10_eq (c : Dev nD) : Gen.V10 m (outsH m) c = VV10 m c := by
  show Function.update (Function.update (Gen.V9 m (outsH m) c) main_v60_0 (outsH m 10 main_v60_0 c)) main_v60_1 (outsH m 10 main_v60_1 c) = _
  rw [outsH_10a, outsH_10b, V9_eq]; rfl

def pdats : (p : Fin 5) → (c : Dev nD) → Dat τ (Elt F) Unit ℕ (UR sig nD τ) ℕ (cfgs p) c
  | ⟨0, _⟩ => fun c => dat0 (fun c b => VV1 m c b) c
  | ⟨1, _⟩ => fun c => dat1 (fun c b => VV3 m c b) c
  | ⟨2, _⟩ => fun c => dat2 (fun c b => VV5 m c b) c
  | ⟨3, _⟩ => fun c => dat3 (fun c b => VV7 m c b) c
  | ⟨4, _⟩ => fun c => dat4 (fun c b => VV9 m c b) c
abbrev Lv : GSem nD τ sig → Finset Unit := fun _ => ∅
abbrev lvl : GSem nD τ sig → Unit → ℕ := fun _ _ => 0
abbrev R (c : Dev nD) : sProp 𝕄 := iprop((∃ r, prngReg c r) ∗ ∃ W, owes (c : Thread nD τ) (0 : CellTallies nD τ sig Unit) W)

/-- `V'` holds the final arrays of the windows in `S` and agrees with `V` off the region's arrays. -/
def Exit {p : Fin 5} {c : Dev nD} (D : Dat τ (Elt F) Unit ℕ (UR sig nD τ) ℕ (cfgs p) c) (V V' : Valuation τ sig (Elt F))
    (S : Fin (cfgs p).W → Prop) : Prop :=
  (∀ w, S w → D.arrAt w (cfgs p).N = V' (Pipeline.arrRef (cfgs p).spec w))
    ∧ ∀ b : Ref sig .tc, b ∉ Finset.univ.image (Pipeline.arrRef (cfgs p).spec) → V' b = V b

/-- Writing window `k`'s final array into `V'` adds `k` to `S`: distinct windows have distinct arrays. -/
theorem Exit.step {p : Fin 5} (L : Pipeline.LaunchFacts (nD := nD) (τ := τ) cfgs p) {c : Dev nD}
    {D : Dat τ (Elt F) Unit ℕ (UR sig nD τ) ℕ (cfgs p) c} {V V' : Valuation τ sig (Elt F)} {S : Fin (cfgs p).W → Prop}
    (k : Fin (cfgs p).W) (h : Exit D V V' S) :
    Exit D V (Function.update V' (Pipeline.arrRef (cfgs p).spec k) (D.arrAt k (cfgs p).N)) fun w => S w ∨ w = k :=
  ⟨fun w hw => by
    by_cases e : w = k
    · rw [e, Function.update_self]
    · rw [Function.update_of_ne (StableHlo.devRef_ne_of_ne fun h => e (L.win.arr_inj h))]; exact h.1 w (hw.resolve_right e),
  fun b hb => by
    have e : b ≠ Pipeline.arrRef (cfgs p).spec k := by rintro rfl; exact hb (Finset.mem_image_of_mem _ (Finset.mem_univ k))
    rw [Function.update_of_ne (StableHlo.devRef_ne_of_ne e)]; exact h.2 b hb⟩

set_option backward.isDefEq.respectTransparency.types false in
def regOf {p : Fin 5} (L : Pipeline.LaunchFacts (nD := nD) (τ := τ) cfgs p) (Vi Vo V V' : Dev nD → Valuation τ sig (Elt F))
    (hi : ∀ c, Vi c = V c) (ho : ∀ c, Vo c = V' c)
    (hq : ∀ c w, (pdats m p c).q w = fullShare) (h0 : ∀ c t, (pdats m p c).owed t = 0)
    (hr : ∀ c t, (pdats m p c).recorded t = Set.univ)
    (hb : ∀ c, BodyObligation (pdats m p c) (defs₀ (F := F)) Variants.none () Set.univ)
    (hA : ∀ c w, (pdats m p c).A w = V c (Pipeline.arrRef (cfgs p).spec w))
    (hΦ : ∀ c i, (pdats m p c).Φ i = Pipeline.ΦA (cfgs p).spec c)
    (S : Fin (cfgs p).W → Prop)
    (hx : ∀ c, Exit (pdats m p c) (V c) (V c) (fun w => ((cfgs p).win w).isOut = false) → Exit (pdats m p c) (V c) (V' c) S)
    (hS : ∀ w, S w) :
    Pipeline.RegionSeg (pcfgs (F := F)) Gen.adm (pdats m) () defs₀ Variants.none Lv lvl p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ Lv lvl p h0
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none, hi]
    have hsplit := Pipeline.arrays_of_unscopedBufs (p := p) (pcfgs (F := F)) Gen.adm (pdats m) L.win L.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0, hr]
      icases HO with ⟨%W, HO⟩; iexists W; isplitr; · ipureintro; exact fun _ _ => Or.inl trivial
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    rw [ho]
    have hx := hx c ⟨fun w hw => ((pdats m p c).arrAt_in w hw _).trans (hA c w), fun _ _ => rfl⟩
    have hjoin := Pipeline.unscopedBufs_of_arrays (p := p) (pcfgs (F := F)) Gen.adm (Ix := Unit) (Name := ℕ) (U := UR sig nD τ) (Lvl := ℕ)
      L.win L.arr_whole c (pdats m) ((pdats m p c).share_full (hq c))
      (fun b => V c b) (fun b => V' c b) ((pdats m p c).arrAt · (cfgs p).N) (fun w => hx.1 w (hS w)) hx.2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

def reg0 := regOf m launch0 (Gen.V1 m) (Gen.V2 m (outsH m)) (VV1 m) (VV2 m) (fun _ => rfl) (V2_eq m)
  (fun _ _ => rfl) (fun _ _ => rfl) (fun _ _ => rfl) (body_obligation0 fun c b => VV1 m c b) (A_eq0 fun c b => VV1 m c b) (Phi_eq0 fun c b => VV1 m c b) _
  (fun c => Exit.step launch0 (10 : Fin cfg0.W)) (by decide)
def reg1 := regOf m launch1 (Gen.V3 m (outsH m)) (Gen.V4 m (outsH m)) (VV3 m) (VV4 m) (V3_eq m) (V4_eq m)
  (fun _ _ => rfl) (fun _ _ => rfl) (fun _ _ => rfl) (body_obligation1 fun c b => VV3 m c b) (A_eq1 fun c b => VV3 m c b) (Phi_eq1 fun c b => VV3 m c b) _
  (fun c => Exit.step launch1 (10 : Fin cfg1.W)) (by decide)
def reg2 := regOf m launch2 (Gen.V5 m (outsH m)) (Gen.V6 m (outsH m)) (VV5 m) (VV6 m) (V5_eq m) (V6_eq m)
  (fun _ _ => rfl) (fun _ _ => rfl) (fun _ _ => rfl) (body_obligation2 fun c b => VV5 m c b) (A_eq2 fun c b => VV5 m c b) (Phi_eq2 fun c b => VV5 m c b) _
  (fun c => Exit.step launch2 (10 : Fin cfg2.W)) (by decide)
def reg3 := regOf m launch3 (Gen.V7 m (outsH m)) (Gen.V8 m (outsH m)) (VV7 m) (VV8 m) (V7_eq m) (V8_eq m)
  (fun _ _ => rfl) (fun _ _ => rfl) (fun _ _ => rfl) (body_obligation3 fun c b => VV7 m c b) (A_eq3 fun c b => VV7 m c b) (Phi_eq3 fun c b => VV7 m c b) _
  (fun c => Exit.step launch3 (2 : Fin cfg3.W)) (by decide)
def reg4 := regOf m launch4 (Gen.V9 m (outsH m)) (Gen.V10 m (outsH m)) (VV9 m) (VV10 m) (V9_eq m) (V10_eq m)
  (fun _ _ => rfl) (fun _ _ => rfl) (fun _ _ => rfl) (body_obligation4 fun c b => VV9 m c b) (A_eq4 fun c b => VV9 m c b) (Phi_eq4 fun c b => VV9 m c b) _
  (fun c h => Exit.step launch4 (6 : Fin cfg4.W) (Exit.step launch4 (5 : Fin cfg4.W) h)) (by decide)

set_option backward.isDefEq.respectTransparency.types false in
theorem run_named (ρ : Dev nD → PrngReg) : θ_run defs (onTc (τ := τ) (main (F := F))) ⟨m, fun _ => 0, ρ⟩ (fun r => ∀ c : Dev nD,
      r.2.mem ((c.tc : Thread nD τ).loc main_v60_0) = o10a m c
      ∧ r.2.mem ((c.tc : Thread nD τ).loc main_v60_1) = o10b m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) := by
  have h := Gen.frame_cond_v m (EP := emb₁) () Variants.none Lv lvl (fun _ _ => rfl) ρ (outsH m) (pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => R c)
      (hE0 := by
        refine Pipeline.initEach Lv lvl fun c => ?_
        iintro ⟨⟨-, HO, -, Hp, -⟩, -⟩
        imodintro
        isplitl [Hp]; · iexists _; iexact Hp
        iexists ∅; iexact HO)
      (hE5 := fun c => by iintro ⟨-, HO⟩; iexact HO)
      (R0 := reg0 m) (hpre0 := fun _ => .rfl) (hpost0 := fun _ => .rfl)
      (R1 := reg1 m) (hpre1 := fun _ => .rfl) (hpost1 := fun _ => .rfl)
      (R2 := reg2 m) (hpre2 := fun _ => .rfl) (hpost2 := fun _ => .rfl)
      (R3 := reg3 m) (hpre3 := fun _ => .rfl) (hpost3 := fun _ => .rfl)
      (R4 := reg4 m) (hpre4 := fun _ => .rfl) (hpost4 := fun _ => .rfl)
  simp only [outsH_10a, outsH_10b] at h
  exact h

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c => (h c).2.2) (run_named m ρ)

end Cert.Kernel.Hand

end
-- ==== Proof.KI.R0.lean ====
import proofs.«421766_j4561255269295_1_alg».proof.Proof.Gen.KernelIdeal.Launch
import proofs.«421766_j4561255269295_1_alg».proof.Proof.Gen.KernelIdeal.Skeleton
import proofs.«421766_j4561255269295_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x3 := Rect.unit (s := S5000x3) ![0, 0] S5000x3.size inb_S5000x3_S5000x3_0_0
abbrev r0_1 : Rect S3x64 := Rect.unit (s := S3x64) ![0, 0] S3x64.size inb_S3x64_S3x64_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S5000x64 := Rect.unit (s := S5000x64) ![0, 0] S5000x64.size inb_S5000x64_S5000x64_0_0

def out0_10 (x0 x1 : Vec F S5000x3 .f32) (x2 : Vec F S3x64 .f32) (x3 x4 x5 x6 x7 : Vec F S1x64 .f32) (x8 : Vec F S64x64 .f32) (x9 : Vec F S1x64 .f32) : Vec F S5000x64 .f32 :=
  View.canon [⟨r0_4, k0_pay1 (k0_pay2 (View.ld x0 r0_0) (View.ld x1 r0_0) (View.ld x2 r0_1) (View.ld x3 r0_2) (View.ld x7 r0_2) (View.ld x6 r0_2) (View.ld x4 r0_2) (View.ld x5 r0_2) (View.ld x8 r0_3)) (View.ld x9 r0_2)⟩]

theorem cover0_10 (p0 : Vec F S5000x64 .f32) (y : S5000x64.Idx) :
    ∃ pc ∈ ([⟨r0_4, p0⟩] : List (View.Piece (Elt F) S5000x64 .f32)), y ∈ pc.1.set :=
  View.cover_of_tiled [⟨r0_4, p0⟩] S5000x64.size (by rfl) y

set_option maxHeartbeats 1000000 in
theorem sound_kernel0 (c : Dev nD) (E : Set ℕ) (i : grid0.Coords) (arg1 : Memref sig .tc .vmem S5000x3 .f32) (harg1 : arg1.IsWhole) (arg2 : Memref sig .tc .vmem S5000x3 .f32) (harg2 : arg2.IsWhole) (arg3 : Memref sig .tc .vmem S3x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole)
    (x0 x1 : Vec F S5000x3 .f32) (x2 : Vec F S3x64 .f32) (x3 x4 x5 x6 x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover0_10 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem Phi_eq0 (c : Dev nD) (i) : (dat0 V c).Φ i = Pipeline.ΦA spec0 c := by
  dsimp only [dat0]

theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_in (c : Dev nD) : ∀ (w : Fin cfg0.W), (cfg0.win w).isOut = false → ∀ (t : Fin cfg0.N) (d), (dat0 V c).before w t d = (dat0 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d | ⟨9, _⟩, _, t, d =>
    Dat.before_in_eq_fetched (dat0 V c) _ rfl (fun _ => rfl) (fun _ _ _ => rfl) (fun _ => rfl) t d
  | ⟨10, _⟩, h, _, _ => by cases h

theorem body_obligation0 (c : Dev nD) : BodyObligation (dat0 (F := F) V c) (defs₀ (F := F)) Variants.none () Set.univ := fun t => by
  rw [bigSep_W0, bigSep_W0]
  show _ ⊢ wp _ _ _ (bodyAt0 t) _
  simp only [before0_in V c 0 rfl, before0_in V c 1 rfl, before0_in V c 2 rfl, before0_in V c 3 rfl, before0_in V c 4 rfl, before0_in V c 5 rfl, before0_in V c 6 rfl, before0_in V c 7 rfl, before0_in V c 8 rfl, before0_in V c 9 rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ ((dat0 V c).after 0 t) ((dat0 V c).after 1 t) ((dat0 V c).after 2 t) ((dat0 V c).after 3 t) ((dat0 V c).after 4 t) ((dat0 V c).after 5 t) ((dat0 V c).after 6 t) ((dat0 V c).after 7 t) ((dat0 V c).after 8 t) ((dat0 V c).after 9 t) _)
  iframe
  isplitl [H10]; · iexists _; iexact H10
  iintro H
  dsimp only [dat0, Dat.owesAt, Dat.bound]
  iframe

end Region0

end Cert.KernelIdeal.Hand

end
-- ==== Proof.KI.R1.lean ====
import proofs.«421766_j4561255269295_1_alg».proof.Proof.Gen.KernelIdeal.Launch
import proofs.«421766_j4561255269295_1_alg».proof.Proof.Gen.KernelIdeal.Skeleton
import proofs.«421766_j4561255269295_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

def out1_10 (x0 x1 : Vec F S5000x64 .f32) (x2 : Vec F S64x64 .f32) (x3 x4 x5 x6 x7 : Vec F S1x64 .f32) (x8 : Vec F S64x64 .f32) (x9 : Vec F S1x64 .f32) : Vec F S5000x64 .f32 :=
  View.canon [⟨r1_0, k1_pay1 (k1_pay2 (View.ld x0 r1_0) (View.ld x1 r1_0) (View.ld x2 r1_1) (View.ld x3 r1_2) (View.ld x7 r1_2) (View.ld x6 r1_2) (View.ld x4 r1_2) (View.ld x5 r1_2)) (k1_pay3 (View.ld x8 r1_1)) (constant S5000x64 .f32 0x00000000#32) (View.ld x9 r1_2)⟩]

theorem cover1_10 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 1000000 in
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole)
    (x0 x1 : Vec F S5000x64 .f32) (x2 : Vec F S64x64 .f32) (x3 x4 x5 x6 x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9 arg10 harg10 arg11 harg11) K := by
  simp only [cc1__gin_mlp_kernel_eq_skeleton]; unfold cc1__gin_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover1_10 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem Phi_eq1 (c : Dev nD) (i) : (dat1 V c).Φ i = Pipeline.ΦA spec1 c := by
  dsimp only [dat1]

theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_in (c : Dev nD) : ∀ (w : Fin cfg1.W), (cfg1.win w).isOut = false → ∀ (t : Fin cfg1.N) (d), (dat1 V c).before w t d = (dat1 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d | ⟨9, _⟩, _, t, d =>
    Dat.before_in_eq_fetched (dat1 V c) _ rfl (fun _ => rfl) (fun _ _ _ => rfl) (fun _ => rfl) t d
  | ⟨10, _⟩, h, _, _ => by cases h

theorem body_obligation1 (c : Dev nD) : BodyObligation (dat1 (F := F) V c) (defs₀ (F := F)) Variants.none () Set.univ := fun t => by
  rw [bigSep_W1, bigSep_W1]
  show _ ⊢ wp _ _ _ (bodyAt1 t) _
  simp only [before1_in V c 0 rfl, before1_in V c 1 rfl, before1_in V c 2 rfl, before1_in V c 3 rfl, before1_in V c 4 rfl, before1_in V c 5 rfl, before1_in V c 6 rfl, before1_in V c 7 rfl, before1_in V c 8 rfl, before1_in V c 9 rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ ((dat1 V c).after 0 t) ((dat1 V c).after 1 t) ((dat1 V c).after 2 t) ((dat1 V c).after 3 t) ((dat1 V c).after 4 t) ((dat1 V c).after 5 t) ((dat1 V c).after 6 t) ((dat1 V c).after 7 t) ((dat1 V c).after 8 t) ((dat1 V c).after 9 t) _)
  iframe
  isplitl [H10]; · iexists _; iexact H10
  iintro H
  dsimp only [dat1, Dat.owesAt, Dat.bound]
  iframe

end Region1

end Cert.KernelIdeal.Hand

end
-- ==== Proof.KI.R2.lean ====
import proofs.«421766_j4561255269295_1_alg».proof.Proof.Gen.KernelIdeal.Launch
import proofs.«421766_j4561255269295_1_alg».proof.Proof.Gen.KernelIdeal.Skeleton
import proofs.«421766_j4561255269295_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

def out2_10 (x0 x1 : Vec F S5000x64 .f32) (x2 : Vec F S64x64 .f32) (x3 x4 x5 x6 x7 : Vec F S1x64 .f32) (x8 : Vec F S64x64 .f32) (x9 : Vec F S1x64 .f32) : Vec F S5000x64 .f32 :=
  View.canon [⟨r2_0, k2_pay1 (k2_pay2 (View.ld x0 r2_0) (View.ld x1 r2_0) (View.ld x2 r2_1) (View.ld x3 r2_2) (View.ld x7 r2_2) (View.ld x6 r2_2) (View.ld x4 r2_2) (View.ld x5 r2_2)) (k2_pay3 (View.ld x8 r2_1)) (constant S5000x64 .f32 0x00000000#32) (View.ld x9 r2_2)⟩]

theorem cover2_10 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S5000x64 .f32) (harg11 : arg11.IsWhole)
    (x0 x1 : Vec F S5000x64 .f32) (x2 : Vec F S64x64 .f32) (x3 x4 x5 x6 x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  simp only [cc2__gin_mlp_kernel_eq_skeleton]; unfold cc2__gin_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover2_10 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem Phi_eq2 (c : Dev nD) (i) : (dat2 V c).Φ i = Pipeline.ΦA spec2 c := by
  dsimp only [dat2]

theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_in (c : Dev nD) : ∀ (w : Fin cfg2.W), (cfg2.win w).isOut = false → ∀ (t : Fin cfg2.N) (d), (dat2 V c).before w t d = (dat2 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d | ⟨9, _⟩, _, t, d =>
    Dat.before_in_eq_fetched (dat2 V c) _ rfl (fun _ => rfl) (fun _ _ _ => rfl) (fun _ => rfl) t d
  | ⟨10, _⟩, h, _, _ => by cases h

theorem body_obligation2 (c : Dev nD) : BodyObligation (dat2 (F := F) V c) (defs₀ (F := F)) Variants.none () Set.univ := fun t => by
  rw [bigSep_W2, bigSep_W2]
  show _ ⊢ wp _ _ _ (bodyAt2 t) _
  simp only [before2_in V c 0 rfl, before2_in V c 1 rfl, before2_in V c 2 rfl, before2_in V c 3 rfl, before2_in V c 4 rfl, before2_in V c 5 rfl, before2_in V c 6 rfl, before2_in V c 7 rfl, before2_in V c 8 rfl, before2_in V c 9 rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ ((dat2 V c).after 0 t) ((dat2 V c).after 1 t) ((dat2 V c).after 2 t) ((dat2 V c).after 3 t) ((dat2 V c).after 4 t) ((dat2 V c).after 5 t) ((dat2 V c).after 6 t) ((dat2 V c).after 7 t) ((dat2 V c).after 8 t) ((dat2 V c).after 9 t) _)
  iframe
  isplitl [H10]; · iexists _; iexact H10
  iintro H
  dsimp only [dat2, Dat.owesAt, Dat.bound]
  iframe

end Region2

end Cert.KernelIdeal.Hand

end
-- ==== Proof.KI.R3.lean ====
import proofs.«421766_j4561255269295_1_alg».proof.Proof.Gen.KernelIdeal.Launch
import proofs.«421766_j4561255269295_1_alg».proof.Proof.Gen.KernelIdeal.Skeleton
import proofs.«421766_j4561255269295_1_alg».proof.Proof.Gen.KernelIdeal.Points
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem N3_pos : 0 < cfg3.N := by rw [show cfg3.N = 10 from N_3]; decide

def acc3 (c : Dev nD) : (n : ℕ) → Vec F S512x192 .f32
  | 0 => k3_pay2 (iblk3 V c 1 ⟨0, N3_pos⟩) (iblk3 V c 0 ⟨0, N3_pos⟩) (k3_pay1 (F := F))
  | n + 1 =>
    if h : n + 1 < cfg3.N then k3_pay2 (iblk3 V c 1 ⟨n + 1, h⟩) (iblk3 V c 0 ⟨n + 1, h⟩) (acc3 c n)
    else acc3 c n

theorem acc3_zero (c : Dev nD) :
    acc3 V c 0 = k3_pay2 (iblk3 V c 1 ⟨0, N3_pos⟩) (iblk3 V c 0 ⟨0, N3_pos⟩) (k3_pay1 (F := F)) := rfl

theorem acc3_succ (c : Dev nD) (n : ℕ) (h : n + 1 < cfg3.N) :
    acc3 V c (n + 1) = k3_pay2 (iblk3 V c 1 ⟨n + 1, h⟩) (iblk3 V c 0 ⟨n + 1, h⟩) (acc3 V c n) := by
  rw [acc3, dif_pos h]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = acc3 V c t.val := rfl

theorem Phi_eq3 (c : Dev nD) (i : Fin (cfg3.N + 1)) : (dat3 V c).Φ i = Pipeline.ΦA spec3 c := rfl

theorem zeros3 : (![0, 0] : Fin 2 → ℕ) = fun _ => 0 := by funext a; fin_cases a <;> rfl

abbrev cond3 (i : grid3.Coords) : Prop :=
  (Scalar.cmpi .ne (Scalar.extui (Scalar.cmpi .eq (BitVec.ofNat 32 (i 0).val) 0#32)) 0#32) = 1#1

theorem hcond3 : ∀ t : Fin cfg3.N, cond3 (grid3.coords t) ↔ t.val = 0 :=
  (by decide +kernel : ∀ t : Fin grid3.N, cond3 (grid3.coords t) ↔ t.val = 0)

set_option maxHeartbeats 1000000 in
/-- One step of the segment sum: the tile's one-hot product added to the block, which restarts from zero where the condition holds. -/
theorem sound_kernel3 {c : Dev nD} {E : Set ℕ} {i : grid3.Coords}
    {arg1 : Memref sig .tc .vmem S5000x192 .f32} {arg2 : Memref sig .tc .vmem S5000x1 .i32} {arg3 : Memref sig .tc .vmem S512x192 .f32}
    {harg1 : arg1.IsWhole} {harg2 : arg2.IsWhole} {harg3 : arg3.IsWhole} {K : PUnit → sProp 𝕄}
    (x0 : Vec F S5000x192 .f32) (x1 : Vec F S5000x1 .i32) (xo : Vec F S512x192 .f32) :
    iprop(owns (c : Thread nD τ) arg1 fullShare x0 ∗ owns (c : Thread nD τ) arg2 fullShare x1
        ∗ owns (c : Thread nD τ) arg3 fullShare xo
        ∗ (iprop(owns (c : Thread nD τ) arg1 fullShare x0 ∗ owns (c : Thread nD τ) arg2 fullShare x1
            ∗ owns (c : Thread nD τ) arg3 fullShare (k3_pay2 x1 x0 (if cond3 i then k3_pay1 (F := F) else xo))) -∗ K ⟨⟩))
      ⊢ wp frame (wpE (defs₀ (F := F)) Variants.none c none) E (cc3__pool_kernel i arg1 harg1 arg2 harg2 arg3 harg3) K := by
  by_cases hc : cond3 i <;> [rw [if_pos hc]; rw [if_neg hc]] <;> (
    simp only [cc3__pool_kernel_eq_skeleton]; unfold cc3__pool_kernel_skel
    unfold owns
    iintro ⟨⟨%f0, %hf0, H0⟩, ⟨%f1, %hf1, H1⟩, ⟨%f2, %hf2, H2⟩, Hk⟩
    subst hf0 hf1 hf2
    sl_exec (disch := first | exact hc)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    sl_unfold_run_names
    refine (View.read_writes_eq_canon _ _ _ (fun y => ⟨_, List.mem_cons.mpr (Or.inl rfl), View.mem_set_unit_zero zeros3 inb_S512x192_S512x192_0_0 y⟩)).trans ?_
    refine (View.canon_cons_unit_zero zeros3 _ _ _).trans ?_
    congr 1 <;> first | exact View.ld_unit_zero zeros3 _ _ | exact View.readCov_unit_zero _ zeros3 _ _)

theorem before3 (c : Dev nD) : ∀ (w : Fin cfg3.W), (cfg3.win w).isOut = false → ∀ (t : Fin cfg3.N) (d), (dat3 V c).before w t d = (dat3 V c).after w t
  | ⟨0, _⟩, _, t, d | ⟨1, _⟩, _, t, d =>
    Dat.before_in_eq_fetched (dat3 V c) _ rfl (fun _ => rfl) (fun _ _ _ => rfl) (fun _ => rfl) t d
  | ⟨2, _⟩, h, _, _ => by cases h

theorem acc3_step (c : Dev nD) (t : Fin cfg3.N) (d) :
    (dat3 V c).after 2 t = k3_pay2 ((dat3 V c).after 1 t) ((dat3 V c).after 0 t)
      (if cond3 (grid3.coords t) then k3_pay1 (F := F) else (dat3 V c).before 2 t d) := by
  have hN : t.val < 10 := lt_of_lt_of_eq t.isLt (show cfg3.N = 10 from N_3)
  obtain ⟨n, hn⟩ := t
  cases n with
  | zero => rw [if_pos ((hcond3 ⟨0, hn⟩).mpr rfl)]; exact acc3_zero V c
  | succ n =>
    rw [if_neg fun h => absurd ((hcond3 ⟨n + 1, hn⟩).mp h) n.succ_ne_zero,
      Dat.before_out_kept _ 2 rfl _ n.succ_ne_zero
        (Bool.eq_false_iff.mpr fun h => by have := (flush3_2 _).mp h; dsimp only at this hN; omega) (fun _ => rfl) (fun _ _ => rfl)]
    exact acc3_succ V c n hn

theorem body_obligation3 (c : Dev nD) : BodyObligation (dat3 (F := F) V c) (defs₀ (F := F)) Variants.none () Set.univ := fun t => by
  rw [bigSep_W3, bigSep_W3]
  show _ ⊢ wp _ _ _ (bodyAt3 t) _
  simp only [before3 V c 0 rfl, before3 V c 1 rfl]
  iintro ⟨HΦ, Ho, ⟨%d0, H0⟩, ⟨%d1, H1⟩, ⟨%d2, H2⟩⟩
  rw [acc3_step V c t d2]
  iapply (sound_kernel3 ((dat3 V c).after 0 t) ((dat3 V c).after 1 t) ((dat3 V c).before 2 t d2))
  iframe
  iintro H
  dsimp only [dat3, Dat.owesAt, Dat.bound]
  iframe

end Region3

end Cert.KernelIdeal.Hand

end
-- ==== Proof.KI.R4.lean ====
import proofs.«421766_j4561255269295_1_alg».proof.Proof.Gen.KernelIdeal.Launch
import proofs.«421766_j4561255269295_1_alg».proof.Proof.Gen.KernelIdeal.Skeleton
import proofs.«421766_j4561255269295_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_pooled : Rect S512x192 := Rect.unit (s := S512x192) ![0, 0] S512x192.size inb_S512x192_S512x192_0_0
abbrev r4_w1 : Rect S192x192 := Rect.unit (s := S192x192) ![0, 0] S192x192.size inb_S192x192_S192x192_0_0
abbrev r4_b1 : Rect S1x192 := Rect.unit (s := S1x192) ![0, 0] S1x192.size inb_S1x192_S1x192_0_0
abbrev r4_w2 : Rect S192x2 := Rect.unit (s := S192x2) ![0, 0] S192x2.size inb_S192x2_S192x2_0_0
abbrev r4_b2 : Rect S1x2 := Rect.unit (s := S1x2) ![0, 0] S1x2.size inb_S1x2_S1x2_0_0
abbrev r4_out : Rect S512x2 := Rect.unit (s := S512x2) ![0, 0] S512x2.size inb_S512x2_S512x2_0_0

def out4_5 (x0 : Vec F S512x192 .f32) (x1 : Vec F S192x192 .f32) (x2 : Vec F S1x192 .f32) (x3 : Vec F S192x2 .f32) (x4 : Vec F S1x2 .f32) : Vec F S512x2 .f32 :=
  View.canon [⟨r4_out, k4_pay1 (View.ld x0 r4_pooled) (View.ld x1 r4_w1) (View.ld x2 r4_b1) (View.ld x3 r4_w2) (View.ld x4 r4_b2)⟩]

def out4_6 (x0 : Vec F S512x192 .f32) (x1 : Vec F S192x192 .f32) (x2 : Vec F S1x192 .f32) (x3 : Vec F S192x2 .f32) (x4 : Vec F S1x2 .f32) : Vec F S512x2 .f32 :=
  View.canon [⟨r4_out, k4_pay2 (View.ld x0 r4_pooled) (View.ld x1 r4_w1) (View.ld x2 r4_b1) (View.ld x3 r4_w2) (View.ld x4 r4_b2)⟩]

theorem sound_kernel4 {c : Dev nD} {E : Set ℕ} {i : grid4.Coords}
    {arg1 : Memref sig .tc .vmem S512x192 .f32} {arg2 : Memref sig .tc .vmem S192x192 .f32} {arg3 : Memref sig .tc .vmem S1x192 .f32}
    {arg4 : Memref sig .tc .vmem S192x2 .f32} {arg5 : Memref sig .tc .vmem S1x2 .f32} {arg6 arg7 : Memref sig .tc .vmem S512x2 .f32}
    {harg1 : arg1.IsWhole} {harg2 : arg2.IsWhole} {harg3 : arg3.IsWhole} {harg4 : arg4.IsWhole} {harg5 : arg5.IsWhole}
    {harg6 : arg6.IsWhole} {harg7 : arg7.IsWhole} {K : PUnit → sProp 𝕄}
    (x0 : Vec F S512x192 .f32) (x1 : Vec F S192x192 .f32) (x2 : Vec F S1x192 .f32) (x3 : Vec F S192x2 .f32) (x4 : Vec F S1x2 .f32)
    (d5 d6 : Vec F S512x2 .f32) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ owns (c : Thread nD τ) arg6 fullShare d5 ∗ owns (c : Thread nD τ) arg7 fullShare d6
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4) ∗ owns (c : Thread nD τ) arg7 fullShare (out4_6 x0 x1 x2 x3 x4)) -∗ K ⟨⟩))
      ⊢ wp frame (wpE (defs₀ (F := F)) Variants.none c none) E
          (cc4__readout_kernel i arg1 harg1 arg2 harg2 arg3 harg3 arg4 harg4 arg5 harg5 arg6 harg6 arg7 harg7) K := by
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, -, H6⟩, Hk⟩
  subst hf0 hf1 hf2 hf3 hf4
  sl_unfold [cc4__readout_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5] <;> (
    iexists _; isplitr
    swap; · first | iexact H5 | iexact H6
    ipureintro
    exact View.read_writes_eq_canon _ _ _ (View.cover_of_tiled _ S512x2.size (by rfl)))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => out4_6 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem Phi_eq4 (c : Dev nD) (i : Fin (cfg4.N + 1)) : (dat4 V c).Φ i = Pipeline.ΦA spec4 c := rfl

theorem after4_5 (c : Dev nD) (t : Fin cfg4.N) : (dat4 V c).after 5 t = out4_5 (iblk4 V c 0 t) (iblk4 V c 1 t) (iblk4 V c 2 t) (iblk4 V c 3 t) (iblk4 V c 4 t) := rfl
theorem after4_6 (c : Dev nD) (t : Fin cfg4.N) : (dat4 V c).after 6 t = out4_6 (iblk4 V c 0 t) (iblk4 V c 1 t) (iblk4 V c 2 t) (iblk4 V c 3 t) (iblk4 V c 4 t) := rfl

theorem before4 (c : Dev nD) : ∀ (w : Fin cfg4.W), (cfg4.win w).isOut = false → ∀ (t : Fin cfg4.N) (d), (dat4 V c).before w t d = (dat4 V c).after w t
  | ⟨0, _⟩, _, t, d | ⟨1, _⟩, _, t, d | ⟨2, _⟩, _, t, d | ⟨3, _⟩, _, t, d | ⟨4, _⟩, _, t, d =>
    Dat.before_in_eq_fetched (dat4 V c) _ rfl (fun _ => rfl) (fun _ _ _ => rfl) (fun _ => rfl) t d
  | ⟨5, _⟩, h, _, _ | ⟨6, _⟩, h, _, _ => by cases h

theorem body_obligation4 (c : Dev nD) : BodyObligation (dat4 (F := F) V c) (defs₀ (F := F)) Variants.none () Set.univ := fun t => by
  rw [bigSep_W4, bigSep_W4]
  show _ ⊢ wp _ _ _ (bodyAt4 t) _
  simp only [before4 V c 0 rfl, before4 V c 1 rfl, before4 V c 2 rfl, before4 V c 3 rfl, before4 V c 4 rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 ((dat4 V c).after 0 t) ((dat4 V c).after 1 t) ((dat4 V c).after 2 t) ((dat4 V c).after 3 t) ((dat4 V c).after 4 t)
    ((dat4 V c).before 5 t d5) ((dat4 V c).before 6 t d6))
  iframe
  iintro H
  dsimp only [dat4, Dat.owesAt, Dat.bound]
  iframe

end Region4

end Cert.KernelIdeal.Hand

end
-- ==== Proof.KI.Frame.lean ====
import proofs.«421766_j4561255269295_1_alg».proof.Proof.Gen.KernelIdeal.Skeleton
import proofs.«421766_j4561255269295_1_alg».proof.Proof.Gen.KernelIdeal.Launch
import proofs.«421766_j4561255269295_1_alg».proof.Proof.Gen.KernelIdeal.Points
import proofs.«421766_j4561255269295_1_alg».proof.Proof.Gen.KernelIdeal.Regions
import proofs.«421766_j4561255269295_1_alg».proof.Proof.KI.R0
import proofs.«421766_j4561255269295_1_alg».proof.Proof.KI.R1
import proofs.«421766_j4561255269295_1_alg».proof.Proof.KI.R2
import proofs.«421766_j4561255269295_1_alg».proof.Proof.KI.R3
import proofs.«421766_j4561255269295_1_alg».proof.Proof.KI.R4
import proofs.«421766_j4561255269295_1_alg».proof.Proof.KI.FrameCondV
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev VV1 (c : Dev nD) : Valuation τ sig (Elt F) := Gen.V1 m c
def o2 (c : Dev nD) : Buf (Elt F) ((c : Thread nD τ).loc main_v21) := (dat0 (fun c b => VV1 m c b) c).arrAt 10 cfg0.N
def VV2 (c : Dev nD) : Valuation τ sig (Elt F) := Function.update (VV1 m c) main_v21 (o2 m c)
def VV3 (c : Dev nD) : Valuation τ sig (Elt F) := StableHlo.after hostOps1 (VV2 m c)
def o4 (c : Dev nD) : Buf (Elt F) ((c : Thread nD τ).loc main_v38) := (dat1 (fun c b => VV3 m c b) c).arrAt 10 cfg1.N
def VV4 (c : Dev nD) : Valuation τ sig (Elt F) := Function.update (VV3 m c) main_v38 (o4 m c)
def VV5 (c : Dev nD) : Valuation τ sig (Elt F) := StableHlo.after hostOps2 (VV4 m c)
def o6 (c : Dev nD) : Buf (Elt F) ((c : Thread nD τ).loc main_v55) := (dat2 (fun c b => VV5 m c b) c).arrAt 10 cfg2.N
def VV6 (c : Dev nD) : Valuation τ sig (Elt F) := Function.update (VV5 m c) main_v55 (o6 m c)
def VV7 (c : Dev nD) : Valuation τ sig (Elt F) := StableHlo.after hostOps3 (VV6 m c)
def o8 (c : Dev nD) : Buf (Elt F) ((c : Thread nD τ).loc main_v57) := (dat3 (fun c b => VV7 m c b) c).arrAt 2 cfg3.N
def VV8 (c : Dev nD) : Valuation τ sig (Elt F) := Function.update (VV7 m c) main_v57 (o8 m c)
def VV9 (c : Dev nD) : Valuation τ sig (Elt F) := StableHlo.after hostOps4 (VV8 m c)
def o10a (c : Dev nD) : Buf (Elt F) ((c : Thread nD τ).loc main_v60_0) := (dat4 (fun c b => VV9 m c b) c).arrAt 5 cfg4.N
def o10b (c : Dev nD) : Buf (Elt F) ((c : Thread nD τ).loc main_v60_1) := (dat4 (fun c b => VV9 m c b) c).arrAt 6 cfg4.N
def VV10 (c : Dev nD) : Valuation τ sig (Elt F) := Function.update (Function.update (VV9 m c) main_v60_0 (o10a m c)) main_v60_1 (o10b m c)

def outsH : Gen.Outs (F := F)
  | 2, r, c => Function.update (Gen.V0 m c) main_v21 (o2 m c) r
  | 4, r, c => Function.update (Gen.V0 m c) main_v38 (o4 m c) r
  | 6, r, c => Function.update (Gen.V0 m c) main_v55 (o6 m c) r
  | 8, r, c => Function.update (Gen.V0 m c) main_v57 (o8 m c) r
  | 10, r, c => Function.update (Function.update (Gen.V0 m c) main_v60_0 (o10a m c)) main_v60_1 (o10b m c) r
  | _, r, c => m ((c : Thread nD τ).loc r)

theorem outsH_2 (c : Dev nD) : outsH m 2 main_v21 c = o2 m c := by
  simp only [outsH, Function.update_self]
theorem outsH_4 (c : Dev nD) : outsH m 4 main_v38 c = o4 m c := by
  simp only [outsH, Function.update_self]
theorem outsH_6 (c : Dev nD) : outsH m 6 main_v55 c = o6 m c := by
  simp only [outsH, Function.update_self]
theorem outsH_8 (c : Dev nD) : outsH m 8 main_v57 c = o8 m c := by
  simp only [outsH, Function.update_self]
theorem outsH_10a (c : Dev nD) : outsH m 10 main_v60_0 c = o10a m c := by
  simp only [outsH, Function.update_of_ne (StableHlo.devRef_ne_of_ne (by decide) : (Proc.devRef .tc main_v60_0 : DevRef τ sig) ≠ Proc.devRef .tc main_v60_1), Function.update_self]
theorem outsH_10b (c : Dev nD) : outsH m 10 main_v60_1 c = o10b m c := by
  simp only [outsH, Function.update_self]

theorem V2_eq (c : Dev nD) : Gen.V2 m (outsH m) c = VV2 m c := by
  show Function.update (Gen.V1 m c) main_v21 (outsH m 2 main_v21 c) = _
  rw [outsH_2]; rfl
theorem V3_eq (c : Dev nD) : Gen.V3 m (outsH m) c = VV3 m c := congrArg (StableHlo.after hostOps1) (V2_eq m c)
theorem V4_eq (c : Dev nD) : Gen.V4 m (outsH m) c = VV4 m c := by
  show Function.update (Gen.V3 m (outsH m) c) main_v38 (outsH m 4 main_v38 c) = _
  rw [outsH_4, V3_eq]; rfl
theorem V5_eq (c : Dev nD) : Gen.V5 m (outsH m) c = VV5 m c := congrArg (StableHlo.after hostOps2) (V4_eq m c)
theorem V6_eq (c : Dev nD) : Gen.V6 m (outsH m) c = VV6 m c := by
  show Function.update (Gen.V5 m (outsH m) c) main_v55 (outsH m 6 main_v55 c) = _
  rw [outsH_6, V5_eq]; rfl
theorem V7_eq (c : Dev nD) : Gen.V7 m (outsH m) c = VV7 m c := congrArg (StableHlo.after hostOps3) (V6_eq m c)
theorem V8_eq (c : Dev nD) : Gen.V8 m (outsH m) c = VV8 m c := by
  show Function.update (Gen.V7 m (outsH m) c) main_v57 (outsH m 8 main_v57 c) = _
  rw [outsH_8, V7_eq]; rfl
theorem V9_eq (c : Dev nD) : Gen.V9 m (outsH m) c = VV9 m c := congrArg (StableHlo.after hostOps4) (V8_eq m c)
theorem V10_eq (c : Dev nD) : Gen.V10 m (outsH m) c = VV10 m c := by
  show Function.update (Function.update (Gen.V9 m (outsH m) c) main_v60_0 (outsH m 10 main_v60_0 c)) main_v60_1 (outsH m 10 main_v60_1 c) = _
  rw [outsH_10a, outsH_10b, V9_eq]; rfl

def pdats : (p : Fin 5) → (c : Dev nD) → Dat τ (Elt F) Unit ℕ (UR sig nD τ) ℕ (cfgs p) c
  | ⟨0, _⟩ => fun c => dat0 (fun c b => VV1 m c b) c
  | ⟨1, _⟩ => fun c => dat1 (fun c b => VV3 m c b) c
  | ⟨2, _⟩ => fun c => dat2 (fun c b => VV5 m c b) c
  | ⟨3, _⟩ => fun c => dat3 (fun c b => VV7 m c b) c
  | ⟨4, _⟩ => fun c => dat4 (fun c b => VV9 m c b) c
abbrev Lv : GSem nD τ sig → Finset Unit := fun _ => ∅
abbrev lvl : GSem nD τ sig → Unit → ℕ := fun _ _ => 0
abbrev R (c : Dev nD) : sProp 𝕄 := iprop((∃ r, prngReg c r) ∗ ∃ W, owes (c : Thread nD τ) (0 : CellTallies nD τ sig Unit) W)

/-- `V'` holds the final arrays of the windows in `S` and agrees with `V` off the region's arrays. -/
def Exit {p : Fin 5} {c : Dev nD} (D : Dat τ (Elt F) Unit ℕ (UR sig nD τ) ℕ (cfgs p) c) (V V' : Valuation τ sig (Elt F))
    (S : Fin (cfgs p).W → Prop) : Prop :=
  (∀ w, S w → D.arrAt w (cfgs p).N = V' (Pipeline.arrRef (cfgs p).spec w))
    ∧ ∀ b : Ref sig .tc, b ∉ Finset.univ.image (Pipeline.arrRef (cfgs p).spec) → V' b = V b

/-- Writing window `k`'s final array into `V'` adds `k` to `S`: distinct windows have distinct arrays. -/
theorem Exit.step {p : Fin 5} (L : Pipeline.LaunchFacts (nD := nD) (τ := τ) cfgs p) {c : Dev nD}
    {D : Dat τ (Elt F) Unit ℕ (UR sig nD τ) ℕ (cfgs p) c} {V V' : Valuation τ sig (Elt F)} {S : Fin (cfgs p).W → Prop}
    (k : Fin (cfgs p).W) (h : Exit D V V' S) :
    Exit D V (Function.update V' (Pipeline.arrRef (cfgs p).spec k) (D.arrAt k (cfgs p).N)) fun w => S w ∨ w = k :=
  ⟨fun w hw => by
    by_cases e : w = k
    · rw [e, Function.update_self]
    · rw [Function.update_of_ne (StableHlo.devRef_ne_of_ne fun h => e (L.win.arr_inj h))]; exact h.1 w (hw.resolve_right e),
  fun b hb => by
    have e : b ≠ Pipeline.arrRef (cfgs p).spec k := by rintro rfl; exact hb (Finset.mem_image_of_mem _ (Finset.mem_univ k))
    rw [Function.update_of_ne (StableHlo.devRef_ne_of_ne e)]; exact h.2 b hb⟩

set_option backward.isDefEq.respectTransparency.types false in
def regOf {p : Fin 5} (L : Pipeline.LaunchFacts (nD := nD) (τ := τ) cfgs p) (Vi Vo V V' : Dev nD → Valuation τ sig (Elt F))
    (hi : ∀ c, Vi c = V c) (ho : ∀ c, Vo c = V' c)
    (hq : ∀ c w, (pdats m p c).q w = fullShare) (h0 : ∀ c t, (pdats m p c).owed t = 0)
    (hr : ∀ c t, (pdats m p c).recorded t = Set.univ)
    (hb : ∀ c, BodyObligation (pdats m p c) (defs₀ (F := F)) Variants.none () Set.univ)
    (hA : ∀ c w, (pdats m p c).A w = V c (Pipeline.arrRef (cfgs p).spec w))
    (hΦ : ∀ c i, (pdats m p c).Φ i = Pipeline.ΦA (cfgs p).spec c)
    (S : Fin (cfgs p).W → Prop)
    (hx : ∀ c, Exit (pdats m p c) (V c) (V c) (fun w => ((cfgs p).win w).isOut = false) → Exit (pdats m p c) (V c) (V' c) S)
    (hS : ∀ w, S w) :
    Pipeline.RegionSeg (pcfgs (F := F)) Gen.adm (pdats m) () defs₀ Variants.none Lv lvl p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ Lv lvl p h0
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none, hi]
    have hsplit := Pipeline.arrays_of_unscopedBufs (p := p) (pcfgs (F := F)) Gen.adm (pdats m) L.win L.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0, hr]
      icases HO with ⟨%W, HO⟩; iexists W; isplitr; · ipureintro; exact fun _ _ => Or.inl trivial
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    rw [ho]
    have hx := hx c ⟨fun w hw => ((pdats m p c).arrAt_in w hw _).trans (hA c w), fun _ _ => rfl⟩
    have hjoin := Pipeline.unscopedBufs_of_arrays (p := p) (pcfgs (F := F)) Gen.adm (Ix := Unit) (Name := ℕ) (U := UR sig nD τ) (Lvl := ℕ)
      L.win L.arr_whole c (pdats m) ((pdats m p c).share_full (hq c))
      (fun b => V c b) (fun b => V' c b) ((pdats m p c).arrAt · (cfgs p).N) (fun w => hx.1 w (hS w)) hx.2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

def reg0 := regOf m launch0 (Gen.V1 m) (Gen.V2 m (outsH m)) (VV1 m) (VV2 m) (fun _ => rfl) (V2_eq m)
  (fun _ _ => rfl) (fun _ _ => rfl) (fun _ _ => rfl) (body_obligation0 fun c b => VV1 m c b) (A_eq0 fun c b => VV1 m c b) (Phi_eq0 fun c b => VV1 m c b) _
  (fun c => Exit.step launch0 (10 : Fin cfg0.W)) (by decide)
def reg1 := regOf m launch1 (Gen.V3 m (outsH m)) (Gen.V4 m (outsH m)) (VV3 m) (VV4 m) (V3_eq m) (V4_eq m)
  (fun _ _ => rfl) (fun _ _ => rfl) (fun _ _ => rfl) (body_obligation1 fun c b => VV3 m c b) (A_eq1 fun c b => VV3 m c b) (Phi_eq1 fun c b => VV3 m c b) _
  (fun c => Exit.step launch1 (10 : Fin cfg1.W)) (by decide)
def reg2 := regOf m launch2 (Gen.V5 m (outsH m)) (Gen.V6 m (outsH m)) (VV5 m) (VV6 m) (V5_eq m) (V6_eq m)
  (fun _ _ => rfl) (fun _ _ => rfl) (fun _ _ => rfl) (body_obligation2 fun c b => VV5 m c b) (A_eq2 fun c b => VV5 m c b) (Phi_eq2 fun c b => VV5 m c b) _
  (fun c => Exit.step launch2 (10 : Fin cfg2.W)) (by decide)
def reg3 := regOf m launch3 (Gen.V7 m (outsH m)) (Gen.V8 m (outsH m)) (VV7 m) (VV8 m) (V7_eq m) (V8_eq m)
  (fun _ _ => rfl) (fun _ _ => rfl) (fun _ _ => rfl) (body_obligation3 fun c b => VV7 m c b) (A_eq3 fun c b => VV7 m c b) (Phi_eq3 fun c b => VV7 m c b) _
  (fun c => Exit.step launch3 (2 : Fin cfg3.W)) (by decide)
def reg4 := regOf m launch4 (Gen.V9 m (outsH m)) (Gen.V10 m (outsH m)) (VV9 m) (VV10 m) (V9_eq m) (V10_eq m)
  (fun _ _ => rfl) (fun _ _ => rfl) (fun _ _ => rfl) (body_obligation4 fun c b => VV9 m c b) (A_eq4 fun c b => VV9 m c b) (Phi_eq4 fun c b => VV9 m c b) _
  (fun c h => Exit.step launch4 (6 : Fin cfg4.W) (Exit.step launch4 (5 : Fin cfg4.W) h)) (by decide)

set_option backward.isDefEq.respectTransparency.types false in
theorem run_named (ρ : Dev nD → PrngReg) : θ_run defs (onTc (τ := τ) (main (F := F))) ⟨m, fun _ => 0, ρ⟩ (fun r => ∀ c : Dev nD,
      r.2.mem ((c.tc : Thread nD τ).loc main_v60_0) = o10a m c
      ∧ r.2.mem ((c.tc : Thread nD τ).loc main_v60_1) = o10b m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) := by
  have h := Gen.frame_cond_v m (EP := emb₁) () Variants.none Lv lvl (fun _ _ => rfl) ρ (outsH m) (pdats m)
      (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => R c)
      (hE0 := by
        refine Pipeline.initEach Lv lvl fun c => ?_
        iintro ⟨⟨-, HO, -, Hp, -⟩, -⟩
        imodintro
        isplitl [Hp]; · iexists _; iexact Hp
        iexists ∅; iexact HO)
      (hE5 := fun c => by iintro ⟨-, HO⟩; iexact HO)
      (R0 := reg0 m) (hpre0 := fun _ => .rfl) (hpost0 := fun _ => .rfl)
      (R1 := reg1 m) (hpre1 := fun _ => .rfl) (hpost1 := fun _ => .rfl)
      (R2 := reg2 m) (hpre2 := fun _ => .rfl) (hpost2 := fun _ => .rfl)
      (R3 := reg3 m) (hpre3 := fun _ => .rfl) (hpost3 := fun _ => .rfl)
      (R4 := reg4 m) (hpre4 := fun _ => .rfl) (hpost4 := fun _ => .rfl)
  simp only [outsH_10a, outsH_10b] at h
  exact h

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c => (h c).2.2) (run_named m ρ)

end Cert.KernelIdeal.Hand

end
-- ==== Proof.LibNary3.lean ====
import Idealize.ShloMosaic.Lib.StableHlo.Run

noncomputable section

namespace Idealize.ShloMosaic.StableHlo

variable {nD : Nat} {τ : Topo} {sig : RefSig} {Val : EltTy → Type}

-- The result over three references takes each operand's contents at its own reference.
theorem nary3_result {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

end Idealize.ShloMosaic.StableHlo

end
-- ==== Proof.Rows.lean ====
import Idealize.ShloMosaic.PureOps.Ideal
import Idealize.ShloMosaic.Lib.ValueIdx

noncomputable section

namespace Cert.Spec

open Idealize.ShloMosaic Idealize.ShloMosaic.ValueIdx

-- The one row of a (1, n) matrix, as a vector.
def row {n : Nat} (v : FVec Ideal ⟨2, ![1, n]⟩ .f32) : FVec Ideal ⟨1, ![n]⟩ .f32 := fun j => v (ix2 0 (j 0))

theorem row_apply {n : Nat} (v : FVec Ideal ⟨2, ![1, n]⟩ .f32) (k : Fin n) : row v (ix1 k) = v (ix2 0 k) := rfl

end Cert.Spec

end
-- ==== Proof.KI.VHost.lean ====
import proofs.«421766_j4561255269295_1_alg».proof.Proof.Gen.KernelIdeal.Regions
import proofs.«421766_j4561255269295_1_alg».proof.Proof.LibNary3
import proofs.«421766_j4561255269295_1_alg».proof.Proof.Spec
import proofs.«421766_j4561255269295_1_alg».proof.Proof.Rows
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen
open Idealize.ShloMosaic Idealize.ShloMosaic.TcCoe Idealize.ShloMosaic.ValueIdx

def srcK (ei : IVec S2x1600000 32) : IVec S1600000 32 :=
  shapeCast S1600000 (extractStridedSlice S1x1600000 ![0, 0] ei slices_S2x1600000_S1x1600000_0_0) shapeCasts_S1x1600000_S1600000

def dstK (ei : IVec S2x1600000 32) : IVec S1600000 32 :=
  shapeCast S1600000 (extractStridedSlice S1x1600000 ![1, 0] ei slices_S2x1600000_S1x1600000_1_0) shapeCasts_S1x1600000_S1600000

def normK (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

def aggK3 (x : FVec Ideal S50000x3 .f32) (src dst : IVec S1600000 32) : FVec Ideal S50000x3 .f32 :=
  Host.scatterAdd scatter_S50000x3_S1600000x1_S1600000x3_1_0_0_1
    (broadcastInDim S50000x3 ![] bcast_S_S50000x3 (constant (F := Ideal) S_ .f32 0x00000000#32))
    (broadcastInDim S1600000x1 ![0] bcast_S1600000_S1600000x1_0 dst)
    (Host.gather gather_S50000x3_S1600000x1_S1600000x3_1_0_n_n_0_1_13 x (normK src))

def aggK64 (x : FVec Ideal S50000x64 .f32) (src dst : IVec S1600000 32) : FVec Ideal S50000x64 .f32 :=
  Host.scatterAdd scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 dst)
    (Host.gather gather_S50000x64_S1600000x1_S1600000x64_1_0_n_n_0_1_164 x (normK src))

abbrev catK (h1 h2 h3 : FVec Ideal S50000x64 .f32) : FVec Ideal S50000x192 .f32 :=
  concatenate S50000x192 1 [⟨S50000x64, h1⟩, ⟨S50000x64, h2⟩, ⟨S50000x64, h3⟩]
    concatenates_S50000x64_S50000x64_S50000x64_S50000x192_d1

-- The one row of a vector reshaped to one row is the vector: entry j of the row is entry j of the vector.
theorem row_of {n : Nat} {x : FVec Ideal ⟨2, ![1, n]⟩ .f32} {v : FVec Ideal ⟨1, ![n]⟩ .f32} {h}
    (e : x = shapeCast ⟨2, ![1, n]⟩ v h) : Spec.row x = v :=
  e ▸ funext fun j => (shapeCast_a_1a_apply v h 0 (j 0)).trans (congrArg v (eq_ix1 j).symm)

theorem col_apply {α : Type} (v : S50000.Idx → α) (n : Fin 50000) (u : Fin 1) :
    shapeCast S50000x1 v shapeCasts_S50000_S50000x1 (ix2 n u) = v (ix1 n) :=
  shapeCast_apply v shapeCasts_S50000_S50000x1 _ _ (by
    have hu : u.val = 0 := by omega
    rw [Shape.rowMajor_val_two, Shape.rowMajor_val_one]
    show n.val = n.val * 1 + u.val
    omega)

theorem catK_apply (h1 h2 h3 : FVec Ideal S50000x64 .f32) (n : Fin 50000) (d : Fin 192) :
    catK h1 h2 h3 (ix2 n d) = Spec.hcat h1 h2 h3 n d := by
  by_cases hA : d.val < 64
  · rw [Spec.hcat_of_lt h1 h2 h3 n d hA]
    exact concatenate_apply_piece (t := S50000x192) 1 [⟨S50000x64, h1⟩, ⟨S50000x64, h2⟩, ⟨S50000x64, h3⟩] concatenates_S50000x64_S50000x64_S50000x64_S50000x192_d1
      (ix2 n d) 0 (by show 0 < 3; omega) S50000x64 h1 rfl rfl 0 rfl (ix2 n ⟨d.val, hA⟩)
      (fun b hb => by
        match b, hb with
        | ⟨0, _⟩, _ => rfl
        | ⟨1, _⟩, hb => exact absurd (Fin.ext rfl) hb)
      (by show 0 + d.val = d.val; omega)
  · by_cases hB : d.val < 128
    · rw [Spec.hcat_of_mid h1 h2 h3 n d (by omega) hB]
      exact concatenate_apply_piece (t := S50000x192) 1 [⟨S50000x64, h1⟩, ⟨S50000x64, h2⟩, ⟨S50000x64, h3⟩] concatenates_S50000x64_S50000x64_S50000x64_S50000x192_d1
        (ix2 n d) 1 (by show 1 < 3; omega) S50000x64 h2 rfl rfl 64 rfl (ix2 n ⟨d.val - 64, by omega⟩)
        (fun b hb => by
          match b, hb with
          | ⟨0, _⟩, _ => rfl
          | ⟨1, _⟩, hb => exact absurd (Fin.ext rfl) hb)
        (by show 64 + (d.val - 64) = d.val; omega)
    · rw [Spec.hcat_of_ge h1 h2 h3 n d (by omega)]
      exact concatenate_apply_piece (t := S50000x192) 1 [⟨S50000x64, h1⟩, ⟨S50000x64, h2⟩, ⟨S50000x64, h3⟩] concatenates_S50000x64_S50000x64_S50000x64_S50000x192_d1
        (ix2 n d) 2 (by show 2 < 3; omega) S50000x64 h3 rfl rfl 128 rfl (ix2 n ⟨d.val - 128, by have := d.isLt; omega⟩)
        (fun b hb => by
          match b, hb with
          | ⟨0, _⟩, _ => rfl
          | ⟨1, _⟩, hb => exact absurd (Fin.ext rfl) hb)
        (by show 128 + (d.val - 128) = d.val; omega)

section Stretches
variable (W : Valuation τ sig (Elt Ideal))

theorem h0_v1 : (StableHlo.after (hostOps0 (F := Ideal)) W main_v1 : IVec S1600000 32) = srcK (W main_arg29) := by
  show StableHlo.after (hostOps0 (F := Ideal)) W (Proc.devRef .tc main_v1) = _
  after_results; rfl

theorem h0_v3 : (StableHlo.after (hostOps0 (F := Ideal)) W main_v3 : IVec S1600000 32) = dstK (W main_arg29) := by
  show StableHlo.after (hostOps0 (F := Ideal)) W (Proc.devRef .tc main_v3) = _
  after_results; rfl

theorem h0_v4 : (StableHlo.after (hostOps0 (F := Ideal)) W main_v4 : IVec S50000x1 32)
    = shapeCast S50000x1 (W main_arg30 : IVec S50000 32) shapeCasts_S50000_S50000x1 := by
  show StableHlo.after (hostOps0 (F := Ideal)) W (Proc.devRef .tc main_v4) = _
  after_results; rfl

theorem h0_v14 : (StableHlo.after (hostOps0 (F := Ideal)) W main_v14 : FVec Ideal S50000x3 .f32)
    = aggK3 (W main_arg0) (srcK (W main_arg29)) (dstK (W main_arg29)) := by
  show StableHlo.after (hostOps0 (F := Ideal)) W (Proc.devRef .tc main_v14) = _
  after_results_simp; rfl

theorem h1_v31 : (StableHlo.after (hostOps1 (F := Ideal)) W main_v31 : FVec Ideal S50000x64 .f32)
    = aggK64 (W main_v21) (W main_v1) (W main_v3) := by
  show StableHlo.after (hostOps1 (F := Ideal)) W (Proc.devRef .tc main_v31) = _
  after_results_simp; rfl

theorem h2_v48 : (StableHlo.after (hostOps2 (F := Ideal)) W main_v48 : FVec Ideal S50000x64 .f32)
    = aggK64 (W main_v38) (W main_v1) (W main_v3) := by
  show StableHlo.after (hostOps2 (F := Ideal)) W (Proc.devRef .tc main_v48) = _
  after_results_simp; rfl

theorem h3_v56 : (StableHlo.after (hostOps3 (F := Ideal)) W main_v56 : FVec Ideal S50000x192 .f32)
    = catK (W main_v21) (W main_v38) (W main_v55) := by
  show StableHlo.after (hostOps3 (F := Ideal)) W (Proc.devRef .tc main_v56) = _
  simp only [StableHlo.after_cons, StableHlo.after_nil]
  rw [StableHlo.nary3_result]
  rfl

end Stretches

end Cert.KernelIdeal.Val

end
-- ==== Proof.KI.VChain.lean ====
import proofs.«421766_j4561255269295_1_alg».proof.Proof.KI.VHost

noncomputable section

namespace Cert.KernelIdeal.Val

open Cert.KernelIdeal Cert.KernelIdeal.Gen
open Idealize.ShloMosaic Idealize.ShloMosaic.TcCoe Idealize.ShloMosaic.ValueIdx

-- Writing one reference leaves every other reference as it was.
theorem upd_of {V : Valuation τ sig (Elt Ideal)} {y r : Ref sig .tc} {x} (h : r ≠ y) :
    Function.update V y x r = V r :=
  Function.update_of_ne (StableHlo.devRef_ne_of_ne h : (Proc.devRef .tc r : DevRef τ sig) ≠ Proc.devRef .tc y) _ _

-- No item of the run writes r: no host stretch, and no region's output array is r.
abbrev Un (r : Ref sig .tc) : Prop :=
  r ∉ hostOps0_W ∧ r ≠ main_v21 ∧ r ∉ hostOps1_W ∧ r ≠ main_v38 ∧ r ∉ hostOps2_W ∧ r ≠ main_v55 ∧ r ∉ hostOps3_W ∧ r ≠ main_v57
    ∧ r ∉ hostOps4_W

section Run
variable (m : (ℓ : Loc nD τ sig) → Buf (Elt Ideal) ℓ) (c : Dev nD)
  (x2 : Buf (Elt Ideal) ((c : Thread nD τ).loc main_v21)) (x4 : Buf (Elt Ideal) ((c : Thread nD τ).loc main_v38))
  (x6 : Buf (Elt Ideal) ((c : Thread nD τ).loc main_v55)) (x8 : Buf (Elt Ideal) ((c : Thread nD τ).loc main_v57))

abbrev W0 : Valuation τ sig (Elt Ideal) := fun b => m (c, b)
abbrev W1 : Valuation τ sig (Elt Ideal) := StableHlo.after (hostOps0 (F := Ideal)) (W0 m c)
abbrev W2 : Valuation τ sig (Elt Ideal) := Function.update (W1 m c) main_v21 x2
abbrev W3 : Valuation τ sig (Elt Ideal) := StableHlo.after (hostOps1 (F := Ideal)) (W2 m c x2)
abbrev W4 : Valuation τ sig (Elt Ideal) := Function.update (W3 m c x2) main_v38 x4
abbrev W5 : Valuation τ sig (Elt Ideal) := StableHlo.after (hostOps2 (F := Ideal)) (W4 m c x2 x4)
abbrev W6 : Valuation τ sig (Elt Ideal) := Function.update (W5 m c x2 x4) main_v55 x6
abbrev W7 : Valuation τ sig (Elt Ideal) := StableHlo.after (hostOps3 (F := Ideal)) (W6 m c x2 x4 x6)
abbrev W8 : Valuation τ sig (Elt Ideal) := Function.update (W7 m c x2 x4 x6) main_v57 x8
abbrev W9 : Valuation τ sig (Elt Ideal) := StableHlo.after (hostOps4 (F := Ideal)) (W8 m c x2 x4 x6 x8)

abbrev srcM : IVec S1600000 32 := srcK (W0 m c main_arg29)
abbrev dstM : IVec S1600000 32 := dstK (W0 m c main_arg29)

theorem W1_of (r : Ref sig .tc) (h : r ∉ hostOps0_W) : W1 m c r = W0 m c r :=
  StableHlo.after_of_writes_sub hostOps0 _ hostOps0_writes h
theorem W3_of (r : Ref sig .tc) (h : r ∉ hostOps1_W) : W3 m c x2 r = W2 m c x2 r :=
  StableHlo.after_of_writes_sub hostOps1 _ hostOps1_writes h
theorem W5_of (r : Ref sig .tc) (h : r ∉ hostOps2_W) : W5 m c x2 x4 r = W4 m c x2 x4 r :=
  StableHlo.after_of_writes_sub hostOps2 _ hostOps2_writes h
theorem W7_of (r : Ref sig .tc) (h : r ∉ hostOps3_W) : W7 m c x2 x4 x6 r = W6 m c x2 x4 x6 r :=
  StableHlo.after_of_writes_sub hostOps3 _ hostOps3_writes h
theorem W9_of (r : Ref sig .tc) (h : r ∉ hostOps4_W) : W9 m c x2 x4 x6 x8 r = W8 m c x2 x4 x6 x8 r :=
  StableHlo.after_of_writes_sub hostOps4 _ hostOps4_writes h

theorem W2_arg (r : Ref sig .tc) (h : Un r) : W2 m c x2 r = W0 m c r := (upd_of h.2.1).trans (W1_of m c r h.1)
theorem W3_arg (r : Ref sig .tc) (h : Un r) : W3 m c x2 r = W0 m c r := (W3_of m c x2 r h.2.2.1).trans (W2_arg m c x2 r h)
theorem W4_arg (r : Ref sig .tc) (h : Un r) : W4 m c x2 x4 r = W0 m c r := (upd_of h.2.2.2.1).trans (W3_arg m c x2 r h)
theorem W5_arg (r : Ref sig .tc) (h : Un r) : W5 m c x2 x4 r = W0 m c r :=
  (W5_of m c x2 x4 r h.2.2.2.2.1).trans (W4_arg m c x2 x4 r h)
theorem W8_arg (r : Ref sig .tc) (h : Un r) : W8 m c x2 x4 x6 x8 r = W0 m c r :=
  (upd_of h.2.2.2.2.2.2.2.1).trans ((W7_of m c x2 x4 x6 r h.2.2.2.2.2.2.1).trans
    ((upd_of h.2.2.2.2.2.1).trans (W5_arg m c x2 x4 r h)))
theorem W9_arg (r : Ref sig .tc) (h : Un r) : W9 m c x2 x4 x6 x8 r = W0 m c r :=
  (W9_of m c x2 x4 x6 x8 r h.2.2.2.2.2.2.2.2).trans (W8_arg m c x2 x4 x6 x8 r h)

theorem W2_v1 : (W2 m c x2 main_v1 : IVec S1600000 32) = srcM m c := (upd_of (by decide)).trans (h0_v1 (W0 m c))
theorem W2_v3 : (W2 m c x2 main_v3 : IVec S1600000 32) = dstM m c := (upd_of (by decide)).trans (h0_v3 (W0 m c))
theorem W4_v1 : (W4 m c x2 x4 main_v1 : IVec S1600000 32) = srcM m c :=
  (upd_of (by decide)).trans ((W3_of m c x2 main_v1 (by decide)).trans (W2_v1 m c x2))
theorem W4_v3 : (W4 m c x2 x4 main_v3 : IVec S1600000 32) = dstM m c :=
  (upd_of (by decide)).trans ((W3_of m c x2 main_v3 (by decide)).trans (W2_v3 m c x2))

theorem W1_v14 : (W1 m c main_v14 : FVec Ideal S50000x3 .f32) = aggK3 (W0 m c main_arg0) (srcM m c) (dstM m c) := h0_v14 (W0 m c)
theorem W1_v15 : Spec.row (W1 m c main_v15) = W0 m c main_arg2 :=
  row_of (by after_results; rfl)
theorem W1_v16 : Spec.row (W1 m c main_v16) = W0 m c main_arg3 :=
  row_of (by after_results; rfl)
theorem W1_v17 : Spec.row (W1 m c main_v17) = W0 m c main_arg4 :=
  row_of (by after_results; rfl)
theorem W1_v18 : Spec.row (W1 m c main_v18) = W0 m c main_arg5 :=
  row_of (by after_results; rfl)
theorem W1_v19 : Spec.row (W1 m c main_v19) = W0 m c main_arg6 :=
  row_of (by after_results; rfl)
theorem W1_v20 : Spec.row (W1 m c main_v20) = W0 m c main_arg8 :=
  row_of (by after_results; rfl)

theorem W3_v21 : W3 m c x2 main_v21 = x2 := (W3_of m c x2 main_v21 (by decide)).trans (Function.update_self _ _ _)
theorem W3_v31 : (W3 m c x2 main_v31 : FVec Ideal S50000x64 .f32) = aggK64 x2 (srcM m c) (dstM m c) :=
  (h1_v31 (W2 m c x2)).trans (congr (congr (congrArg aggK64 (Function.update_self _ _ _)) (W2_v1 m c x2)) (W2_v3 m c x2))
theorem W3_v32 : Spec.row (W3 m c x2 main_v32) = W0 m c main_arg10 :=
  (row_of (by after_results; rfl)).trans (W2_arg m c x2 main_arg10 (by decide))
theorem W3_v33 : Spec.row (W3 m c x2 main_v33) = W0 m c main_arg11 :=
  (row_of (by after_results; rfl)).trans (W2_arg m c x2 main_arg11 (by decide))
theorem W3_v34 : Spec.row (W3 m c x2 main_v34) = W0 m c main_arg12 :=
  (row_of (by after_results; rfl)).trans (W2_arg m c x2 main_arg12 (by decide))
theorem W3_v35 : Spec.row (W3 m c x2 main_v35) = W0 m c main_arg13 :=
  (row_of (by after_results; rfl)).trans (W2_arg m c x2 main_arg13 (by decide))
theorem W3_v36 : Spec.row (W3 m c x2 main_v36) = W0 m c main_arg14 :=
  (row_of (by after_results; rfl)).trans (W2_arg m c x2 main_arg14 (by decide))
theorem W3_v37 : Spec.row (W3 m c x2 main_v37) = W0 m c main_arg16 :=
  (row_of (by after_results; rfl)).trans (W2_arg m c x2 main_arg16 (by decide))

theorem W5_v38 : W5 m c x2 x4 main_v38 = x4 := (W5_of m c x2 x4 main_v38 (by decide)).trans (Function.update_self _ _ _)
theorem W5_v48 : (W5 m c x2 x4 main_v48 : FVec Ideal S50000x64 .f32) = aggK64 x4 (srcM m c) (dstM m c) :=
  (h2_v48 (W4 m c x2 x4)).trans (congr (congr (congrArg aggK64 (Function.update_self _ _ _)) (W4_v1 m c x2 x4)) (W4_v3 m c x2 x4))
theorem W5_v49 : Spec.row (W5 m c x2 x4 main_v49) = W0 m c main_arg18 :=
  (row_of (by after_results; rfl)).trans (W4_arg m c x2 x4 main_arg18 (by decide))
theorem W5_v50 : Spec.row (W5 m c x2 x4 main_v50) = W0 m c main_arg19 :=
  (row_of (by after_results; rfl)).trans (W4_arg m c x2 x4 main_arg19 (by decide))
theorem W5_v51 : Spec.row (W5 m c x2 x4 main_v51) = W0 m c main_arg20 :=
  (row_of (by after_results; rfl)).trans (W4_arg m c x2 x4 main_arg20 (by decide))
theorem W5_v52 : Spec.row (W5 m c x2 x4 main_v52) = W0 m c main_arg21 :=
  (row_of (by after_results; rfl)).trans (W4_arg m c x2 x4 main_arg21 (by decide))
theorem W5_v53 : Spec.row (W5 m c x2 x4 main_v53) = W0 m c main_arg22 :=
  (row_of (by after_results; rfl)).trans (W4_arg m c x2 x4 main_arg22 (by decide))
theorem W5_v54 : Spec.row (W5 m c x2 x4 main_v54) = W0 m c main_arg24 :=
  (row_of (by after_results; rfl)).trans (W4_arg m c x2 x4 main_arg24 (by decide))

theorem W6_v21 : W6 m c x2 x4 x6 main_v21 = x2 :=
  (upd_of (by decide)).trans <| (W5_of m c x2 x4 main_v21 (by decide)).trans <| (upd_of (by decide)).trans (W3_v21 m c x2)
theorem W7_v56 : (W7 m c x2 x4 x6 main_v56 : FVec Ideal S50000x192 .f32) = catK x2 x4 x6 :=
  (h3_v56 (W6 m c x2 x4 x6)).trans (congr (congr (congrArg catK (W6_v21 m c x2 x4 x6))
    ((upd_of (by decide)).trans (W5_v38 m c x2 x4))) (Function.update_self _ _ _))
theorem W7_v4 : (W7 m c x2 x4 x6 main_v4 : IVec S50000x1 32) = shapeCast S50000x1 (W0 m c main_arg30 : IVec S50000 32) shapeCasts_S50000_S50000x1 :=
  (W7_of m c x2 x4 x6 main_v4 (by decide)).trans <| (upd_of (by decide)).trans <|
    (W5_of m c x2 x4 main_v4 (by decide)).trans <| (upd_of (by decide)).trans <|
    (W3_of m c x2 main_v4 (by decide)).trans <| (upd_of (by decide)).trans (h0_v4 (W0 m c))

theorem W9_v57 : W9 m c x2 x4 x6 x8 main_v57 = x8 :=
  (W9_of m c x2 x4 x6 x8 main_v57 (by decide)).trans (Function.update_self _ _ _)
theorem W9_v58 : Spec.row (W9 m c x2 x4 x6 x8 main_v58) = W0 m c main_arg26 :=
  (row_of (by after_results; rfl)).trans (W8_arg m c x2 x4 x6 x8 main_arg26 (by decide))
theorem W9_v59 : Spec.row (W9 m c x2 x4 x6 x8 main_v59) = W0 m c main_arg28 :=
  (row_of (by after_results; rfl)).trans (W8_arg m c x2 x4 x6 x8 main_arg28 (by decide))

end Run

end Cert.KernelIdeal.Val

end
-- ==== Proof.KI.VGin.lean ====
import Idealize.ShloMosaic.Lib.Pipeline.Value
import Idealize.ShloMosaic.Lib.ValueIdx
import Idealize.ShloMosaic.Lib.KernelVsHost
import Idealize.ShloMosaic.Lib.StackMember

noncomputable section

open scoped BigOperators

namespace Cert.KernelIdeal.Val

open Idealize.ShloMosaic Idealize.ShloMosaic.ValueIdx

-- A product of an m×k by a k×n matrix into the zero accumulator is, entry by entry, the sum over the contracted coordinate.
theorem mm_apply {m k n : Nat} {φ₁ φ₂ : FTy} (D : DotDims ⟨2, ![m, k]⟩ ⟨2, ![k, n]⟩ ⟨2, ![m, n]⟩) (hD : D = DotDims.plain m k n)
    (A : FVec Ideal ⟨2, ![m, k]⟩ φ₁) (B : FVec Ideal ⟨2, ![k, n]⟩ φ₂) (a : Fin m) (b : Fin n) :
    FloatOps.matmul D none A B (constant (F := Ideal) ⟨2, ![m, n]⟩ .f32 0x00000000#32) (ix2 a b) = ∑ c : Fin k, A (ix2 a c) * B (ix2 c b) := by
  subst hD
  exact (congrFun (matmul_zero_eq_dotGeneral _ none A B) _).trans (StackMember.dotGeneral_plain_apply none A B a b)

theorem zero2 : (![0, 0] : Fin 2 → Nat) = fun _ => 0 := funext fun a => by fin_cases a <;> rfl

theorem rsqrt_apply {s : Shape} {φ : FTy} (x : FVec Ideal s φ) (i : s.Idx) : rsqrt x i = Ideal.rsqrt (x i) := rfl

theorem ofBits_zero : FloatOps.ofBits (F := Ideal) .f32 0x00000000#32 = 0 := Ideal.ofBits_zero_f32

end Cert.KernelIdeal.Val

end
-- ==== Proof.KI.V0Pay.lean ====
import proofs.«421766_j4561255269295_1_alg».proof.Proof.Gen.KernelIdeal.Skeleton
import proofs.«421766_j4561255269295_1_alg».proof.Proof.Spec
import proofs.«421766_j4561255269295_1_alg».proof.Proof.Rows
import proofs.«421766_j4561255269295_1_alg».proof.Proof.KI.VGin
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

-- When row r of the two node tiles holds node n's features and neighbour sums, the body's value at (r, j) is the first layer's output feature j of node n.
theorem gin0_apply (X A : FVec Ideal Spec.S50000x3 .f32) (x a : FVec Ideal S5000x3 .f32) (w1 : FVec Ideal S3x64 .f32)
    (b1 v mm g bb : FVec Ideal S1x64 .f32) (w2 : FVec Ideal S64x64 .f32) (b2 : FVec Ideal S1x64 .f32)
    (n : Fin 50000) (r : Fin 5000) (j : Fin 64)
    (hx : ∀ k' : Fin 3, x (ix2 r k') = X (ix2 n k')) (ha : ∀ k' : Fin 3, a (ix2 r k') = A (ix2 n k')) :
    k0_pay1 (F := Ideal) (k0_pay2 x a w1 b1 v mm g bb w2) b2 (ix2 r j)
      = Spec.ginAt (K := 3) X A w1 (Spec.row b1) (Spec.row g) (Spec.row bb) (Spec.row mm) (Spec.row v) w2 (Spec.row b2) n j := by
  unfold k0_pay1 k0_pay2 Spec.ginAt Spec.hidAt
  dsimp only
  simp only [maximumf_apply, addf_apply, subf_apply, mulf_apply, broadcast_apply, shapeCast_self, broadcastTo_1b_ab_apply,
    mm_apply dot_S5000x64_S64x64_S5000x64_1_0_0_1_n_n rfl, mm_apply dot_S5000x3_S3x64_S5000x64_1_0_0_1_n_n rfl, truncf_apply, rsqrt_apply,
    ofBits_zero, Spec.row_apply, hx, ha]
  rfl

end Cert.KernelIdeal.Val

end
-- ==== Proof.KI.V0.lean ====
import proofs.«421766_j4561255269295_1_alg».proof.Proof.KI.R0
import proofs.«421766_j4561255269295_1_alg».proof.Proof.KI.V0Pay
import proofs.«421766_j4561255269295_1_alg».proof.Proof.Spec
import proofs.«421766_j4561255269295_1_alg».proof.Proof.Rows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev layer0 (c : Dev nD) : FVec Ideal S50000x64 .f32 :=
  Spec.gin3 (V c main_arg0) (V c main_v14) (V c main_arg1) (Spec.row (V c main_v15)) (Spec.row (V c main_v16))
    (Spec.row (V c main_v17)) (Spec.row (V c main_v18)) (Spec.row (V c main_v19)) (V c main_arg7) (Spec.row (V c main_v20))

theorem idx0_rows : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_10.index t (1 : Fin 2) = 0 ∧ win0_10.index t (0 : Fin 2) ≤ 9 :=
  (by decide +kernel : ∀ t : Fin grid0.N, _)

theorem idx0_const : ∀ (w : Fin cfg0.W) (t : Fin cfg0.N) (a : Fin (cfg0.win w).shape.rank), 2 ≤ w.val → w.val ≤ 9 → (cfg0.win w).index t a = 0 :=
  (by decide +kernel : ∀ (w : Fin 11) (t : Fin grid0.N) (a : Fin (cfg0.win w).shape.rank), 2 ≤ w.val → w.val ≤ 9 → (cfg0.win w).index t a = 0)

theorem idx0_onto : ∀ q : Fin 10, ∃ t : Fin cfg0.N, win0_10.index t = ![q.val, 0] :=
  (by decide +kernel : ∀ q : Fin 10, ∃ t : Fin grid0.N, win0_10.index t = ![q.val, 0])

theorem blk0_2 (c : Dev nD) (t : Fin cfg0.N) : (iblk0 V c 2 t : Vec Ideal S3x64 .f32) = V c main_arg1 :=
  funext fun y => congrArg (V c main_arg1) (funext fun a => Fin.ext (win0_2.rect_emb_val_of_index_zero t a (idx0_const 2 t a (by decide) (by decide)) y))
theorem blk0_3 (c : Dev nD) (t : Fin cfg0.N) : (iblk0 V c 3 t : Vec Ideal S1x64 .f32) = V c main_v15 :=
  funext fun y => congrArg (V c main_v15) (funext fun a => Fin.ext (win0_3.rect_emb_val_of_index_zero t a (idx0_const 3 t a (by decide) (by decide)) y))
theorem blk0_4 (c : Dev nD) (t : Fin cfg0.N) : (iblk0 V c 4 t : Vec Ideal S1x64 .f32) = V c main_v16 :=
  funext fun y => congrArg (V c main_v16) (funext fun a => Fin.ext (win0_4.rect_emb_val_of_index_zero t a (idx0_const 4 t a (by decide) (by decide)) y))
theorem blk0_5 (c : Dev nD) (t : Fin cfg0.N) : (iblk0 V c 5 t : Vec Ideal S1x64 .f32) = V c main_v17 :=
  funext fun y => congrArg (V c main_v17) (funext fun a => Fin.ext (win0_5.rect_emb_val_of_index_zero t a (idx0_const 5 t a (by decide) (by decide)) y))
theorem blk0_6 (c : Dev nD) (t : Fin cfg0.N) : (iblk0 V c 6 t : Vec Ideal S1x64 .f32) = V c main_v18 :=
  funext fun y => congrArg (V c main_v18) (funext fun a => Fin.ext (win0_6.rect_emb_val_of_index_zero t a (idx0_const 6 t a (by decide) (by decide)) y))
theorem blk0_7 (c : Dev nD) (t : Fin cfg0.N) : (iblk0 V c 7 t : Vec Ideal S1x64 .f32) = V c main_v19 :=
  funext fun y => congrArg (V c main_v19) (funext fun a => Fin.ext (win0_7.rect_emb_val_of_index_zero t a (idx0_const 7 t a (by decide) (by decide)) y))
theorem blk0_8 (c : Dev nD) (t : Fin cfg0.N) : (iblk0 V c 8 t : Vec Ideal S64x64 .f32) = V c main_arg7 :=
  funext fun y => congrArg (V c main_arg7) (funext fun a => Fin.ext (win0_8.rect_emb_val_of_index_zero t a (idx0_const 8 t a (by decide) (by decide)) y))
theorem blk0_9 (c : Dev nD) (t : Fin cfg0.N) : (iblk0 V c 9 t : Vec Ideal S1x64 .f32) = V c main_v20 :=
  funext fun y => congrArg (V c main_v20) (funext fun a => Fin.ext (win0_9.rect_emb_val_of_index_zero t a (idx0_const 9 t a (by decide) (by decide)) y))

theorem flushed0_eq (c : Dev nD) (t : Fin cfg0.N) :
    (dat0 V c).flushed 10 t = ((cfg0.win 10).blk t).view.read (Elt Ideal) (layer0 V c) := by
  show (cfg0.win 10).cut (grid0.coords t) ((dat0 V c).after 10 t) = _
  rw [after0_10, blk0_2 V c t, blk0_3 V c t, blk0_4 V c t, blk0_5 V c t, blk0_6 V c t, blk0_7 V c t, blk0_8 V c t, blk0_9 V c t]
  unfold out0_10
  rw [View.canon_unit_zero zero2]
  simp only [View.ld_unit_zero (S := S5000x3) zero2, View.ld_unit_zero (S := S3x64) zero2, View.ld_unit_zero (S := S1x64) zero2,
    View.ld_unit_zero (S := S64x64) zero2]
  funext y
  obtain ⟨r, j, rfl⟩ : ∃ (r : Fin 5000) (j : Fin 64), y = ix2 r j := ⟨y 0, y 1, eq_ix2 y⟩
  obtain ⟨e0, e1, e2, e3, e4, e5⟩ := idx0_rows t
  have hr : r.val < 5000 := r.isLt
  obtain ⟨n, hn⟩ : ∃ n : Fin 50000, n.val = win0_10.index t (0 : Fin 2) * 5000 + 1 * r.val := ⟨⟨_, by omega⟩, rfl⟩
  have hemb : ((cfg0.win 10).blk t).view.emb (ix2 r j) = (ix2 n j : S50000x64.Idx) :=
    Shape.idx_ext₂ hn.symm (by show win0_10.index t (1 : Fin 2) * 64 + 1 * j.val = j.val; omega)
  show k0_pay1 (F := Ideal) _ _ (ix2 r j) = layer0 V c (((cfg0.win 10).blk t).view.emb (ix2 r j))
  rw [hemb]
  exact gin0_apply (V c main_arg0) (V c main_v14) _ _ _ _ _ _ _ _ _ _ n r j
    (fun k => congrArg (V c main_arg0) (Shape.idx_ext₂ (by show win0_0.index t (0 : Fin 2) * 5000 + 1 * r.val = n.val; omega)
      (by show win0_0.index t (1 : Fin 2) * 3 + 1 * k.val = k.val; omega)))
    (fun k => congrArg (V c main_v14) (Shape.idx_ext₂ (by show win0_1.index t (0 : Fin 2) * 5000 + 1 * r.val = n.val; omega)
      (by show win0_1.index t (1 : Fin 2) * 3 + 1 * k.val = k.val; omega)))

-- Row n of the array is in the block of the point whose tile is n / 5000.
theorem cover0 (i : S50000x64.Idx) :
    ∃ t : Fin cfg0.N, (cfg0.win 10).flush t = true ∧ i ∈ ((cfg0.win 10).blk t).view.set := by
  have hi0 : (i 0).val < 50000 := (i 0).isLt
  have hi1 : (i 1).val < 64 := (i 1).isLt
  obtain ⟨t, ht⟩ := idx0_onto ⟨(i 0).val / 5000, by omega⟩
  have q0 : win0_10.index t (0 : Fin 2) = (i 0).val / 5000 := congrFun ht 0
  have q1 : win0_10.index t (1 : Fin 2) = 0 := congrFun ht 1
  refine ⟨t, flush0_10 t, ?_⟩
  show i ∈ ((View.whole main_v21).slice (win0_10.rect t)).set
  rw [View.set_slice_whole, Rect.mem_set_unit]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 64 ≤ (i 1).val ∧ (i 1).val < win0_10.index t (1 : Fin 2) * 64 + 64; omega

-- After the ten points the output array is the first layer of the arrays the region was entered with.
theorem final0 (c : Dev nD) : ((dat0 (F := Ideal) V c).arrAt 10 cfg0.N : FVec Ideal S50000x64 .f32)
    = Spec.gin3 (V c main_arg0) (V c main_v14) (V c main_arg1) (Spec.row (V c main_v15)) (Spec.row (V c main_v16))
        (Spec.row (V c main_v17)) (Spec.row (V c main_v18)) (Spec.row (V c main_v19)) (V c main_arg7) (Spec.row (V c main_v20)) :=
  (dat0 V c).arrAt_eq_of_cover 10 (layer0 V c) (fun t _ => flushed0_eq V c t) cover0

end Cert.KernelIdeal.Val

end
-- ==== Proof.KI.V1Pay.lean ====
import proofs.«421766_j4561255269295_1_alg».proof.Proof.Gen.KernelIdeal.Skeleton
import proofs.«421766_j4561255269295_1_alg».proof.Proof.Spec
import proofs.«421766_j4561255269295_1_alg».proof.Proof.Rows
import proofs.«421766_j4561255269295_1_alg».proof.Proof.KI.VGin
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

-- When row r of the two node tiles holds node n's features and neighbour sums, the stored value at (r, j) is the layer's output feature j of node n.
theorem core1 (X A : FVec Ideal Spec.S50000x64 .f32) (x a : Vec Ideal S5000x64 .f32) (w1 : Vec Ideal S64x64 .f32)
    (b1 v mm g bb : Vec Ideal S1x64 .f32) (w2 : Vec Ideal S64x64 .f32) (b2 : Vec Ideal S1x64 .f32)
    (n : Fin 50000) (r : Fin 5000) (j : Fin 64)
    (hx : ∀ k' : Fin 64, x (ix2 r k') = X (ix2 n k')) (ha : ∀ k' : Fin 64, a (ix2 r k') = A (ix2 n k')) :
    k1_pay1 (F := Ideal) (k1_pay2 x a w1 b1 v mm g bb) (k1_pay3 w2) (constant (F := Ideal) S5000x64 .f32 0x00000000#32) b2 (ix2 r j)
      = Spec.ginAt (K := 64) X A w1 (Spec.row b1) (Spec.row g) (Spec.row bb) (Spec.row mm) (Spec.row v) w2 (Spec.row b2) n j := by
  unfold k1_pay1 k1_pay2 k1_pay3 Spec.ginAt Spec.hidAt
  dsimp only
  simp only [maximumf_apply, addf_apply, subf_apply, mulf_apply, broadcast_apply, shapeCast_self, broadcastTo_1b_ab_apply,
    mm_apply dot_S5000x64_S64x64_S5000x64_1_0_0_1_n_n rfl, truncf_apply, rsqrt_apply, ofBits_zero, Spec.row_apply, hx, ha]
  rfl

end Cert.KernelIdeal.Val

end
-- ==== Proof.KI.V1.lean ====
import proofs.«421766_j4561255269295_1_alg».proof.Proof.KI.R1
import proofs.«421766_j4561255269295_1_alg».proof.Proof.KI.V1Pay
import proofs.«421766_j4561255269295_1_alg».proof.Proof.Spec
import proofs.«421766_j4561255269295_1_alg».proof.Proof.Rows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

section Value1
variable (V : (c : Dev nD) → (b : Ref sig .tc) → Buf (Elt Ideal) ((c : Thread nD τ).loc b))

abbrev G1 (c : Dev nD) : FVec Ideal S50000x64 .f32 :=
  Spec.gin64 (V c main_v21) (V c main_v31) (V c main_arg9) (Spec.row (V c main_v32)) (Spec.row (V c main_v33))
    (Spec.row (V c main_v34)) (Spec.row (V c main_v35)) (Spec.row (V c main_v36)) (V c main_arg15) (Spec.row (V c main_v37))

theorem idx1_rows : ∀ t : Fin cfg1.N,
    win1_0.index t (0 : Fin 2) = win1_10.index t (0 : Fin 2) ∧ win1_0.index t (1 : Fin 2) = 0
    ∧ win1_1.index t (0 : Fin 2) = win1_10.index t (0 : Fin 2) ∧ win1_1.index t (1 : Fin 2) = 0
    ∧ win1_10.index t (1 : Fin 2) = 0 ∧ win1_10.index t (0 : Fin 2) ≤ 9 :=
  (by decide +kernel : ∀ t : Fin grid1.N, _)

theorem idx1_const : ∀ (w : Fin cfg1.W) (t : Fin cfg1.N) (a : Fin (cfg1.win w).shape.rank), 2 ≤ w.val → w.val ≤ 9 → (cfg1.win w).index t a = 0 :=
  (by decide +kernel : ∀ (w : Fin 11) (t : Fin grid1.N) (a : Fin (cfg1.win w).shape.rank), 2 ≤ w.val → w.val ≤ 9 → (cfg1.win w).index t a = 0)

theorem idx1_onto : ∀ q : Fin 10, ∃ t : Fin cfg1.N, win1_10.index t = ![q.val, 0] :=
  (by decide +kernel : ∀ q : Fin 10, ∃ t : Fin grid1.N, win1_10.index t = ![q.val, 0])

theorem blk1_2 (c : Dev nD) (t : Fin cfg1.N) : (iblk1 V c 2 t : Vec Ideal S64x64 .f32) = V c main_arg9 :=
  funext fun y => congrArg (V c main_arg9) (funext fun a => Fin.ext (win1_2.rect_emb_val_of_index_zero t a (idx1_const 2 t a (by decide) (by decide)) y))
theorem blk1_3 (c : Dev nD) (t : Fin cfg1.N) : (iblk1 V c 3 t : Vec Ideal S1x64 .f32) = V c main_v32 :=
  funext fun y => congrArg (V c main_v32) (funext fun a => Fin.ext (win1_3.rect_emb_val_of_index_zero t a (idx1_const 3 t a (by decide) (by decide)) y))
theorem blk1_4 (c : Dev nD) (t : Fin cfg1.N) : (iblk1 V c 4 t : Vec Ideal S1x64 .f32) = V c main_v33 :=
  funext fun y => congrArg (V c main_v33) (funext fun a => Fin.ext (win1_4.rect_emb_val_of_index_zero t a (idx1_const 4 t a (by decide) (by decide)) y))
theorem blk1_5 (c : Dev nD) (t : Fin cfg1.N) : (iblk1 V c 5 t : Vec Ideal S1x64 .f32) = V c main_v34 :=
  funext fun y => congrArg (V c main_v34) (funext fun a => Fin.ext (win1_5.rect_emb_val_of_index_zero t a (idx1_const 5 t a (by decide) (by decide)) y))
theorem blk1_6 (c : Dev nD) (t : Fin cfg1.N) : (iblk1 V c 6 t : Vec Ideal S1x64 .f32) = V c main_v35 :=
  funext fun y => congrArg (V c main_v35) (funext fun a => Fin.ext (win1_6.rect_emb_val_of_index_zero t a (idx1_const 6 t a (by decide) (by decide)) y))
theorem blk1_7 (c : Dev nD) (t : Fin cfg1.N) : (iblk1 V c 7 t : Vec Ideal S1x64 .f32) = V c main_v36 :=
  funext fun y => congrArg (V c main_v36) (funext fun a => Fin.ext (win1_7.rect_emb_val_of_index_zero t a (idx1_const 7 t a (by decide) (by decide)) y))
theorem blk1_8 (c : Dev nD) (t : Fin cfg1.N) : (iblk1 V c 8 t : Vec Ideal S64x64 .f32) = V c main_arg15 :=
  funext fun y => congrArg (V c main_arg15) (funext fun a => Fin.ext (win1_8.rect_emb_val_of_index_zero t a (idx1_const 8 t a (by decide) (by decide)) y))
theorem blk1_9 (c : Dev nD) (t : Fin cfg1.N) : (iblk1 V c 9 t : Vec Ideal S1x64 .f32) = V c main_v37 :=
  funext fun y => congrArg (V c main_v37) (funext fun a => Fin.ext (win1_9.rect_emb_val_of_index_zero t a (idx1_const 9 t a (by decide) (by decide)) y))

theorem flushed1_eq (c : Dev nD) (t : Fin cfg1.N) :
    (dat1 V c).flushed 10 t = ((cfg1.win 10).blk t).view.read (Elt Ideal) (G1 V c) := by
  show (cfg1.win 10).cut (grid1.coords t) ((dat1 V c).after 10 t) = _
  rw [after1_10, blk1_2 V c t, blk1_3 V c t, blk1_4 V c t, blk1_5 V c t, blk1_6 V c t, blk1_7 V c t, blk1_8 V c t, blk1_9 V c t]
  unfold out1_10
  rw [View.canon_unit_zero zero2]
  simp only [View.ld_unit_zero (S := S5000x64) zero2, View.ld_unit_zero (S := S64x64) zero2, View.ld_unit_zero (S := S1x64) zero2]
  funext y
  obtain ⟨r, j, rfl⟩ : ∃ (r : Fin 5000) (j : Fin 64), y = ix2 r j := ⟨y 0, y 1, eq_ix2 y⟩
  obtain ⟨e0, e1, e2, e3, e4, e5⟩ := idx1_rows t
  have hr : r.val < 5000 := r.isLt
  obtain ⟨n, hn⟩ : ∃ n : Fin 50000, n.val = win1_10.index t (0 : Fin 2) * 5000 + 1 * r.val := ⟨⟨_, by omega⟩, rfl⟩
  have hemb : ((cfg1.win 10).blk t).view.emb (ix2 r j) = (ix2 n j : S50000x64.Idx) :=
    Shape.idx_ext₂ hn.symm (by show win1_10.index t (1 : Fin 2) * 64 + 1 * j.val = j.val; omega)
  show k1_pay1 (F := Ideal) _ _ _ _ (ix2 r j) = G1 V c (((cfg1.win 10).blk t).view.emb (ix2 r j))
  rw [hemb]
  exact core1 (V c main_v21) (V c main_v31) _ _ _ _ _ _ _ _ _ _ n r j
    (fun k => congrArg (V c main_v21) (Shape.idx_ext₂ (by show win1_0.index t (0 : Fin 2) * 5000 + 1 * r.val = n.val; omega)
      (by show win1_0.index t (1 : Fin 2) * 64 + 1 * k.val = k.val; omega)))
    (fun k => congrArg (V c main_v31) (Shape.idx_ext₂ (by show win1_1.index t (0 : Fin 2) * 5000 + 1 * r.val = n.val; omega)
      (by show win1_1.index t (1 : Fin 2) * 64 + 1 * k.val = k.val; omega)))

-- Row n of the array is in the block of the point whose tile is n / 5000.
theorem cover1 (i : S50000x64.Idx) :
    ∃ t : Fin cfg1.N, (cfg1.win 10).flush t = true ∧ i ∈ ((cfg1.win 10).blk t).view.set := by
  have hi0 : (i 0).val < 50000 := (i 0).isLt
  have hi1 : (i 1).val < 64 := (i 1).isLt
  obtain ⟨t, ht⟩ := idx1_onto ⟨(i 0).val / 5000, by omega⟩
  have q0 : win1_10.index t (0 : Fin 2) = (i 0).val / 5000 := congrFun ht 0
  have q1 : win1_10.index t (1 : Fin 2) = 0 := congrFun ht 1
  refine ⟨t, flush1_10 t, ?_⟩
  show i ∈ ((View.whole main_v38).slice (win1_10.rect t)).set
  rw [View.set_slice_whole, Rect.mem_set_unit]
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 64 ≤ (i 1).val ∧ (i 1).val < win1_10.index t (1 : Fin 2) * 64 + 64; omega

-- After the ten points the output array is the layer's network of the arrays the region found.
theorem final1 (c : Dev nD) : ((dat1 (F := Ideal) V c).arrAt 10 cfg1.N : FVec Ideal S50000x64 .f32)
    = Spec.gin64 (V c main_v21) (V c main_v31) (V c main_arg9) (Spec.row (V c main_v32)) (Spec.row (V c main_v33))
        (Spec.row (V c main_v34)) (Spec.row (V c main_v35)) (Spec.row (V c main_v36)) (V c main_arg15) (Spec.row (V c main_v37)) :=
  (dat1 V c).arrAt_eq_of_cover 10 (G1 V c) (fun t _ => flushed1_eq V c t) cover1

end Value1

end Cert.KernelIdeal.Val

end
-- ==== Proof.KI.V2Pay.lean ====
import proofs.«421766_j4561255269295_1_alg».proof.Proof.Gen.KernelIdeal.Skeleton
import proofs.«421766_j4561255269295_1_alg».proof.Proof.Spec
import proofs.«421766_j4561255269295_1_alg».proof.Proof.Rows
import proofs.«421766_j4561255269295_1_alg».proof.Proof.KI.VGin
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

-- When row r of the two node tiles holds node n's features and neighbour sums, the stored value at (r, j) is the layer's output feature j of node n.
theorem core2 (X A : FVec Ideal Spec.S50000x64 .f32) (x a : Vec Ideal S5000x64 .f32) (w1 : Vec Ideal S64x64 .f32)
    (b1 v mm g bb : Vec Ideal S1x64 .f32) (w2 : Vec Ideal S64x64 .f32) (b2 : Vec Ideal S1x64 .f32)
    (n : Fin 50000) (r : Fin 5000) (j : Fin 64)
    (hx : ∀ k' : Fin 64, x (ix2 r k') = X (ix2 n k')) (ha : ∀ k' : Fin 64, a (ix2 r k') = A (ix2 n k')) :
    k2_pay1 (F := Ideal) (k2_pay2 x a w1 b1 v mm g bb) (k2_pay3 w2) (constant (F := Ideal) S5000x64 .f32 0x00000000#32) b2 (ix2 r j)
      = Spec.ginAt (K := 64) X A w1 (Spec.row b1) (Spec.row g) (Spec.row bb) (Spec.row mm) (Spec.row v) w2 (Spec.row b2) n j := by
  unfold k2_pay1 k2_pay2 k2_pay3 Spec.ginAt Spec.hidAt
  dsimp only
  simp only [maximumf_apply, addf_apply, subf_apply, mulf_apply, broadcast_apply, shapeCast_self, broadcastTo_1b_ab_apply,
    mm_apply dot_S5000x64_S64x64_S5000x64_1_0_0_1_n_n rfl, truncf_apply, rsqrt_apply, ofBits_zero, Spec.row_apply, hx, ha]
  rfl

end Cert.KernelIdeal.Val

end
-- ==== Proof.KI.V2.lean ====
import proofs.«421766_j4561255269295_1_alg».proof.Proof.KI.R2
import proofs.«421766_j4561255269295_1_alg».proof.Proof.KI.V2Pay
import proofs.«421766_j4561255269295_1_alg».proof.Proof.Spec
import proofs.«421766_j4561255269295_1_alg».proof.Proof.Rows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

section Value2
variable (V : (c : Dev nD) → (b : Ref sig .tc) → Buf (Elt Ideal) ((c : Thread nD τ).loc b))

abbrev G2 (c : Dev nD) : FVec Ideal S50000x64 .f32 :=
  Spec.gin64 (V c main_v38) (V c main_v48) (V c main_arg17) (Spec.row (V c main_v49)) (Spec.row (V c main_v50))
    (Spec.row (V c main_v51)) (Spec.row (V c main_v52)) (Spec.row (V c main_v53)) (V c main_arg23) (Spec.row (V c main_v54))

theorem idx2_rows : ∀ t : Fin cfg2.N,
    win2_0.index t (0 : Fin 2) = win2_10.index t (0 : Fin 2) ∧ win2_0.index t (1 : Fin 2) = 0
    ∧ win2_1.index t (0 : Fin 2) = win2_10.index t (0 : Fin 2) ∧ win2_1.index t (1 : Fin 2) = 0
    ∧ win2_10.index t (1 : Fin 2) = 0 ∧ win2_10.index t (0 : Fin 2) ≤ 9 :=
  (by decide +kernel : ∀ t : Fin grid2.N, _)

theorem idx2_const : ∀ (w : Fin cfg2.W) (t : Fin cfg2.N) (a : Fin (cfg2.win w).shape.rank), 2 ≤ w.val → w.val ≤ 9 → (cfg2.win w).index t a = 0 :=
  (by decide +kernel : ∀ (w : Fin 11) (t : Fin grid2.N) (a : Fin (cfg2.win w).shape.rank), 2 ≤ w.val → w.val ≤ 9 → (cfg2.win w).index t a = 0)

theorem idx2_onto : ∀ q : Fin 10, ∃ t : Fin cfg2.N, win2_10.index t = ![q.val, 0] :=
  (by decide +kernel : ∀ q : Fin 10, ∃ t : Fin grid2.N, win2_10.index t = ![q.val, 0])

theorem blk2_2 (c : Dev nD) (t : Fin cfg2.N) : (iblk2 V c 2 t : Vec Ideal S64x64 .f32) = V c main_arg17 :=
  funext fun y => congrArg (V c main_arg17) (funext fun a => Fin.ext (win2_2.rect_emb_val_of_index_zero t a (idx2_const 2 t a (by decide) (by decide)) y))
theorem blk2_3 (c : Dev nD) (t : Fin cfg2.N) : (iblk2 V c 3 t : Vec Ideal S1x64 .f32) = V c main_v49 :=
  funext fun y => congrArg (V c main_v49) (funext fun a => Fin.ext (win2_3.rect_emb_val_of_index_zero t a (idx2_const 3 t a (by decide) (by decide)) y))
theorem blk2_4 (c : Dev nD) (t : Fin cfg2.N) : (iblk2 V c 4 t : Vec Ideal S1x64 .f32) = V c main_v50 :=
  funext fun y => congrArg (V c main_v50) (funext fun a => Fin.ext (win2_4.rect_emb_val_of_index_zero t a (idx2_const 4 t a (by decide) (by decide)) y))
theorem blk2_5 (c : Dev nD) (t : Fin cfg2.N) : (iblk2 V c 5 t : Vec Ideal S1x64 .f32) = V c main_v51 :=
  funext fun y => congrArg (V c main_v51) (funext fun a => Fin.ext (win2_5.rect_emb_val_of_index_zero t a (idx2_const 5 t a (by decide) (by decide)) y))
theorem blk2_6 (c : Dev nD) (t : Fin cfg2.N) : (iblk2 V c 6 t : Vec Ideal S1x64 .f32) = V c main_v52 :=
  funext fun y => congrArg (V c main_v52) (funext fun a => Fin.ext (win2_6.rect_emb_val_of_index_zero t a (idx2_const 6 t a (by decide) (by decide)) y))
theorem blk2_7 (c : Dev nD) (t : Fin cfg2.N) : (iblk2 V c 7 t : Vec Ideal S1x64 .f32) = V c main_v53 :=
  funext fun y => congrArg (V c main_v53) (funext fun a => Fin.ext (win2_7.rect_emb_val_of_index_zero t a (idx2_const 7 t a (by decide) (by decide)) y))
theorem blk2_8 (c : Dev nD) (t : Fin cfg2.N) : (iblk2 V c 8 t : Vec Ideal S64x64 .f32) = V c main_arg23 :=
  funext fun y => congrArg (V c main_arg23) (funext fun a => Fin.ext (win2_8.rect_emb_val_of_index_zero t a (idx2_const 8 t a (by decide) (by decide)) y))
theorem blk2_9 (c : Dev nD) (t : Fin cfg2.N) : (iblk2 V c 9 t : Vec Ideal S1x64 .f32) = V c main_v54 :=
  funext fun y => congrArg (V c main_v54) (funext fun a => Fin.ext (win2_9.rect_emb_val_of_index_zero t a (idx2_const 9 t a (by decide) (by decide)) y))

theorem flushed2_eq (c : Dev nD) (t : Fin cfg2.N) :
    (dat2 V c).flushed 10 t = ((cfg2.win 10).blk t).view.read (Elt Ideal) (G2 V c) := by
  show (cfg2.win 10).cut (grid2.coords t) ((dat2 V c).after 10 t) = _
  rw [after2_10, blk2_2 V c t, blk2_3 V c t, blk2_4 V c t, blk2_5 V c t, blk2_6 V c t, blk2_7 V c t, blk2_8 V c t, blk2_9 V c t]
  unfold out2_10
  rw [View.canon_unit_zero zero2]
  simp only [View.ld_unit_zero (S := S5000x64) zero2, View.ld_unit_zero (S := S64x64) zero2, View.ld_unit_zero (S := S1x64) zero2]
  funext y
  obtain ⟨r, j, rfl⟩ : ∃ (r : Fin 5000) (j : Fin 64), y = ix2 r j := ⟨y 0, y 1, eq_ix2 y⟩
  obtain ⟨e0, e1, e2, e3, e4, e5⟩ := idx2_rows t
  have hr : r.val < 5000 := r.isLt
  obtain ⟨n, hn⟩ : ∃ n : Fin 50000, n.val = win2_10.index t (0 : Fin 2) * 5000 + 1 * r.val := ⟨⟨_, by omega⟩, rfl⟩
  have hemb : ((cfg2.win 10).blk t).view.emb (ix2 r j) = (ix2 n j : S50000x64.Idx) :=
    Shape.idx_ext₂ hn.symm (by show win2_10.index t (1 : Fin 2) * 64 + 1 * j.val = j.val; omega)
  show k2_pay1 (F := Ideal) _ _ _ _ (ix2 r j) = G2 V c (((cfg2.win 10).blk t).view.emb (ix2 r j))
  rw [hemb]
  exact core2 (V c main_v38) (V c main_v48) _ _ _ _ _ _ _ _ _ _ n r j
    (fun k => congrArg (V c main_v38) (Shape.idx_ext₂ (by show win2_0.index t (0 : Fin 2) * 5000 + 1 * r.val = n.val; omega)
      (by show win2_0.index t (1 : Fin 2) * 64 + 1 * k.val = k.val; omega)))
    (fun k => congrArg (V c main_v48) (Shape.idx_ext₂ (by show win2_1.index t (0 : Fin 2) * 5000 + 1 * r.val = n.val; omega)
      (by show win2_1.index t (1 : Fin 2) * 64 + 1 * k.val = k.val; omega)))

-- Row n of the array is in the block of the point whose tile is n / 5000.
theorem cover2 (i : S50000x64.Idx) :
    ∃ t : Fin cfg2.N, (cfg2.win 10).flush t = true ∧ i ∈ ((cfg2.win 10).blk t).view.set := by
  have hi0 : (i 0).val < 50000 := (i 0).isLt
  have hi1 : (i 1).val < 64 := (i 1).isLt
  obtain ⟨t, ht⟩ := idx2_onto ⟨(i 0).val / 5000, by omega⟩
  have q0 : win2_10.index t (0 : Fin 2) = (i 0).val / 5000 := congrFun ht 0
  have q1 : win2_10.index t (1 : Fin 2) = 0 := congrFun ht 1
  refine ⟨t, flush2_10 t, ?_⟩
  show i ∈ ((View.whole main_v55).slice (win2_10.rect t)).set
  rw [View.set_slice_whole, Rect.mem_set_unit]
  intro a
  match a with
  | ⟨0, _⟩ => show win2_10.index t (0 : Fin 2) * 5000 ≤ (i 0).val ∧ (i 0).val < win2_10.index t (0 : Fin 2) * 5000 + 5000; omega
  | ⟨1, _⟩ => show win2_10.index t (1 : Fin 2) * 64 ≤ (i 1).val ∧ (i 1).val < win2_10.index t (1 : Fin 2) * 64 + 64; omega

-- After the ten points the output array is the layer's network of the arrays the region found.
theorem final2 (c : Dev nD) : ((dat2 (F := Ideal) V c).arrAt 10 cfg2.N : FVec Ideal S50000x64 .f32)
    = Spec.gin64 (V c main_v38) (V c main_v48) (V c main_arg17) (Spec.row (V c main_v49)) (Spec.row (V c main_v50))
        (Spec.row (V c main_v51)) (Spec.row (V c main_v52)) (Spec.row (V c main_v53)) (V c main_arg23) (Spec.row (V c main_v54)) :=
  (dat2 V c).arrAt_eq_of_cover 10 (G2 V c) (fun t _ => flushed2_eq V c t) cover2

end Value2

end Cert.KernelIdeal.Val

end
-- ==== Proof.KI.V3Pay.lean ====
import proofs.«421766_j4561255269295_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.StableHlo.Predicate

noncomputable section

open scoped BigOperators

namespace Cert.KernelIdeal.Val

open Cert.KernelIdeal Cert.KernelIdeal.Gen
open Idealize.ShloMosaic Idealize.ShloMosaic.ValueIdx

theorem ofBits_one_f32 : Ideal.ofBits .f32 0x3F800000#32 = 1 := by
  simp [Ideal.ofBits, Ideal.ieee, -EReal.coe_mul]; norm_num

-- A word is the word of a graph number below 512 exactly when it reads, signed, as that number; so the one-hot entry times a value is the value there and zero elsewhere.
theorem onehot_mul (x : BitVec 32) (g : Fin 512) (y : EReal) :
    Scalar.select (IntOp.cmpi .eq x (BitVec.ofNat 32 g.val)) (FloatOps.ofBits .f32 0x3F800000#32 : Ideal .f32)
        (FloatOps.ofBits .f32 0x00000000#32 : Ideal .f32) * y
      = if x.toInt = (g.val : Int) then y else 0 := by
  show Scalar.select (IntOp.cmpi .eq x (BitVec.ofNat 32 g.val)) (Ideal.ofBits .f32 0x3F800000#32)
    (Ideal.ofBits .f32 0x00000000#32) * y = _
  have hg := StableHlo.Predicate.toInt_ofNat_small g.val (by have := g.isLt; omega)
  unfold Scalar.select
  by_cases h : x.toInt = (g.val : Int)
  · have hc : IntOp.cmpi .eq x (BitVec.ofNat 32 g.val) = 1 :=
      StableHlo.Predicate.cmpi_eq_iff.mpr (BitVec.eq_of_toInt_eq (h.trans hg.symm))
    rw [if_pos hc, if_pos h, ofBits_one_f32, one_mul]
  · have hc : ¬IntOp.cmpi .eq x (BitVec.ofNat 32 g.val) = 1 :=
      fun hc => h ((congrArg BitVec.toInt (StableHlo.Predicate.cmpi_eq_iff.mp hc)).trans hg)
    rw [if_neg hc, if_neg h, Ideal.ofBits_zero_f32, zero_mul]

-- One tile's step adds, at graph g and column d, the features of the tile's rows whose id reads g.
theorem k3_pay2_apply (ids : IVec S5000x1 32) (h : FVec Ideal S5000x192 .f32) (acc : FVec Ideal S512x192 .f32)
    (g : Fin 512) (d : Fin 192) :
    k3_pay2 (F := Ideal) ids h acc (ix2 g d)
      = acc (ix2 g d) + ∑ r : Fin 5000, (if (ids (ix2 r 0)).toInt = (g.val : Int) then h (ix2 r d) else 0) := by
  unfold k3_pay2
  simp only [matmul]
  rw [addf_apply, shapeCast_self, Ideal.matmul_constant_zero_apply,
    ← Equiv.sum_comp (contrEquiv1 dot_S5000x512_S5000x192_S512x192_0_0_1_1_n_n 5000 rfl rfl).symm]
  refine congrArg (acc (ix2 g d) + ·) (Finset.sum_congr rfl fun r _ => ?_)
  have hr := contrEquiv1_symm_val dot_S5000x512_S5000x192_S512x192_0_0_1_1_n_n 5000 rfl rfl r
  rw [show dot_S5000x512_S5000x192_S512x192_0_0_1_1_n_n.lhsIdx (ix2 g d) ((contrEquiv1 dot_S5000x512_S5000x192_S512x192_0_0_1_1_n_n 5000 rfl rfl).symm r) = ix2 r g from Shape.idx_ext₂ hr rfl,
    show dot_S5000x512_S5000x192_S512x192_0_0_1_1_n_n.rhsIdx (ix2 g d) ((contrEquiv1 dot_S5000x512_S5000x192_S512x192_0_0_1_1_n_n 5000 rfl rfl).symm r) = ix2 r d from Shape.idx_ext₂ hr rfl,
    truncf_apply, truncf_apply, shapeCast_self ids, shapeCast_self h, select_apply, broadcast_apply, broadcast_apply]
  refine Eq.trans ?_ (onehot_mul (ids (ix2 r 0)) g _)
  show Scalar.select (IntOp.cmpi .eq (broadcastTo S5000x512 ids broadcasts_S5000x1_S5000x512 (ix2 r g))
      (iota .tc S5000x512 32 [1] iota_S5000x512_d1_w32 (ix2 r g))) _ _ * _ = _
  rw [iota_single_apply, broadcastTo_apply ids broadcasts_S5000x1_S5000x512 (ix2 r g) (ix2 r 0) (fun a => by
    match a with
    | ⟨0, _⟩ => rfl
    | ⟨1, _⟩ => rfl)]

end Cert.KernelIdeal.Val

end
-- ==== Proof.PoolOf.lean ====
import proofs.«421766_j4561255269295_1_alg».proof.Proof.Spec

noncomputable section

open scoped BigOperators

namespace Cert.Spec

open Idealize.ShloMosaic Idealize.ShloMosaic.ValueIdx

-- The per-graph sums of a (50000, 192) array's rows, graph ids given as a (50000, 1) matrix of words read signed.
def poolOf (h : FVec Ideal ⟨2, ![50000, 192]⟩ .f32) (ids : IVec ⟨2, ![50000, 1]⟩ 32) : FVec Ideal S512x192 .f32 :=
  fun i => ∑ n : Fin 50000, if (ids (ix2 n 0)).toInt = (((i 0 : Fin 512)).val : Int) then h (ix2 n (i 1)) else 0

theorem poolOf_apply (h : FVec Ideal ⟨2, ![50000, 192]⟩ .f32) (ids : IVec ⟨2, ![50000, 1]⟩ 32) (g : Fin 512) (d : Fin 192) :
    poolOf h ids (ix2 g d) = ∑ n : Fin 50000, if (ids (ix2 n 0)).toInt = (g.val : Int) then h (ix2 n d) else 0 := rfl

theorem poolOf_eq_pool (hc : FVec Ideal ⟨2, ![50000, 192]⟩ .f32) (ids : IVec ⟨2, ![50000, 1]⟩ 32)
    (h1 h2 h3 : FVec Ideal S50000x64 .f32) (batch : IVec S50000 32)
    (hhc : ∀ (n : Fin 50000) (d : Fin 192), hc (ix2 n d) = hcat h1 h2 h3 n d)
    (hids : ∀ n : Fin 50000, ids (ix2 n 0) = batch (ix1 n)) :
    poolOf hc ids = pool h1 h2 h3 batch := by
  funext i
  obtain ⟨g, d, rfl⟩ : ∃ (g : Fin 512) (d : Fin 192), i = ix2 g d := ⟨i 0, i 1, eq_ix2 i⟩
  rw [poolOf_apply, pool_apply]
  unfold poolAt
  exact Finset.sum_congr rfl fun n _ => by rw [hids n, hhc n d]

end Cert.Spec

end
-- ==== Proof.KI.V3.lean ====
import proofs.«421766_j4561255269295_1_alg».proof.Proof.KI.R3
import proofs.«421766_j4561255269295_1_alg».proof.Proof.KI.V3Pay
import proofs.«421766_j4561255269295_1_alg».proof.Proof.PoolOf
import Idealize.ShloMosaic.Lib.Pipeline.Value

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

theorem index3 : ∀ t : Fin cfg3.N,
    win3_0.index t (0 : Fin 2) = t.val ∧ win3_0.index t (1 : Fin 2) = 0
    ∧ win3_1.index t (0 : Fin 2) = t.val ∧ win3_1.index t (1 : Fin 2) = 0
    ∧ ∀ a, win3_2.index t a = 0 :=
  (by decide +kernel : ∀ t : Fin grid3.N, _)

section AnyValues

variable {F : FTy → Type} [FloatOps F]
variable (V : (c : Dev nD) → (b : Ref sig .tc) → Buf (Elt F) ((c : Thread nD τ).loc b))

-- Row r of tile t's feature block is row 5000 t + r of the feature array.
theorem iblk3_0_apply (c : Dev nD) (t : Fin cfg3.N) (r : Fin 5000) (d : Fin 192) (hk : 5000 * t.val + r.val < 50000) :
    (iblk3 V c 0 t : Vec F S5000x192 .f32) (ix2 r d)
      = (V c main_v56 : Vec F S50000x192 .f32) (ix2 ⟨5000 * t.val + r.val, hk⟩ d) :=
  congrArg (V c main_v56) (Shape.idx_ext₂
    (by show win3_0.index t 0 * 5000 + 1 * r.val = 5000 * t.val + r.val; rw [(index3 t).1]; omega)
    (by show win3_0.index t 1 * 192 + 1 * d.val = d.val; rw [(index3 t).2.1]; omega))

-- Row r of tile t's id block is row 5000 t + r of the id column.
theorem iblk3_1_apply (c : Dev nD) (t : Fin cfg3.N) (r : Fin 5000) (hk : 5000 * t.val + r.val < 50000) :
    (iblk3 V c 1 t : Vec F S5000x1 .i32) (ix2 r 0)
      = (V c main_v4 : Vec F S50000x1 .i32) (ix2 ⟨5000 * t.val + r.val, hk⟩ 0) :=
  congrArg (V c main_v4) (Shape.idx_ext₂
    (by show win3_1.index t 0 * 5000 + 1 * r.val = 5000 * t.val + r.val; rw [(index3 t).2.2.1]; omega)
    (by show win3_1.index t 1 * 1 + 1 * 0 = 0; rw [(index3 t).2.2.2.1]))

theorem arr3 (c : Dev nD) :
    (dat3 V c).arrAt 2 cfg3.N = (acc3 V c 9 : Buf (Elt F) ((c : Thread nD τ).loc main_v57)) := by
  have hz : (fun a => win3_2.index t3_9 a * main_v57.ty.shape.size a) = fun _ => 0 :=
    funext fun a => (congrArg (· * _) ((index3 t3_9).2.2.2.2 a)).trans (Nat.zero_mul _)
  refine (dat3 V c).arrAt_eq_of_cover 2 (acc3 V c 9) (fun t hf => ?_) fun i => ⟨t3_9, (flush3_2 t3_9).mpr rfl, ?_⟩
  · have hN : cfg3.N = 10 := N_3
    have h9 : t.val = 9 := by have := (flush3_2 t).mp hf; have := t.isLt; omega
    obtain rfl : t = t3_9 := Fin.ext h9
    show (cfg3.win 2).cut (grid3.coords t3_9) ((dat3 V c).after 2 t3_9) = _
    rw [after3_2]
    exact (Memref.read_access_unit_zero (Elt F) main_v57 hz (fun a => by rw [congrFun hz a]; simp) (acc3 V c 9)).symm
  · show i ∈ ((View.whole main_v57).slice (win3_2.rect t3_9)).set
    rw [View.set_slice_whole]
    exact View.mem_set_unit_zero (S := S512x192) hz _ i

end AnyValues

-- Node k's contribution to graph g at column d (nothing past the last node).
def nodeTerm (H : FVec Ideal S50000x192 .f32) (I : IVec S50000x1 32) (g : Fin 512) (d : Fin 192) (k : ℕ) : EReal :=
  if hk : k < 50000 then (if (I (ix2 ⟨k, hk⟩ 0)).toInt = (g.val : Int) then H (ix2 ⟨k, hk⟩ d) else 0) else 0

section AtIdeal

variable (V : (c : Dev nD) → (b : Ref sig .tc) → Buf (Elt Ideal) ((c : Thread nD τ).loc b))

-- Tile t's step adds the contributions of nodes 5000 t … 5000 t + 4999.
theorem step3 (c : Dev nD) (t : Fin cfg3.N) (acc : FVec Ideal S512x192 .f32) (g : Fin 512) (d : Fin 192) :
    k3_pay2 (F := Ideal) (iblk3 V c 1 t) (iblk3 V c 0 t) acc (ix2 g d)
      = acc (ix2 g d) + ∑ j ∈ Finset.range 5000, nodeTerm (V c main_v56) (V c main_v4) g d (5000 * t.val + j) := by
  rw [k3_pay2_apply, ← Fin.sum_univ_eq_sum_range (fun j => nodeTerm (V c main_v56) (V c main_v4) g d (5000 * t.val + j)) 5000]
  refine congrArg (acc (ix2 g d) + ·) (Finset.sum_congr rfl fun r _ => ?_)
  have hN : cfg3.N = 10 := N_3
  have hk : 5000 * t.val + r.val < 50000 := by have := r.isLt; have := t.isLt; omega
  unfold nodeTerm
  rw [dif_pos hk, iblk3_1_apply V c t r hk, iblk3_0_apply V c t r d hk]

-- After tile n the block holds, at graph g and column d, the contributions of the nodes below 5000 (n + 1).
theorem acc3_apply (c : Dev nD) (g : Fin 512) (d : Fin 192) : ∀ n : ℕ, n < 10 →
    (acc3 (F := Ideal) V c n) (ix2 g d)
      = ∑ k ∈ Finset.range (5000 * (n + 1)), nodeTerm (V c main_v56) (V c main_v4) g d k
  | 0, _ => by
    rw [acc3_zero, step3]
    show Ideal.ofBits .f32 0x00000000#32 + _ = _
    rw [Ideal.ofBits_zero_f32, zero_add]
    exact Finset.sum_congr rfl fun j _ => by rw [Nat.mul_zero, Nat.zero_add]
  | n + 1, h => by
    have hn : n + 1 < cfg3.N := by rw [show cfg3.N = 10 from N_3]; exact h
    rw [acc3_succ V c n hn, step3, acc3_apply c g d n (by omega),
      show 5000 * (n + 1 + 1) = 5000 * (n + 1) + 5000 by omega, Finset.sum_range_add]

-- The region's result array ends holding the per-graph sums of the feature array by the id column.
theorem final3 (c : Dev nD) :
    ((dat3 (F := Ideal) V c).arrAt 2 cfg3.N : FVec Ideal S512x192 .f32) = Spec.poolOf (V c main_v56) (V c main_v4) := by
  refine (arr3 V c).trans ?_
  funext i
  obtain ⟨g, d, rfl⟩ : ∃ (g : Fin 512) (d : Fin 192), i = ix2 g d := ⟨i 0, i 1, eq_ix2 i⟩
  rw [Spec.poolOf_apply, acc3_apply V c g d 9 (by omega), ← Fin.sum_univ_eq_sum_range (nodeTerm (V c main_v56) (V c main_v4) g d) 50000]
  exact Finset.sum_congr rfl fun n _ => dif_pos n.isLt

end AtIdeal

end Cert.KernelIdeal.Val

end
-- ==== Proof.KI.V4.lean ====
import proofs.«421766_j4561255269295_1_alg».proof.Proof.KI.R4
import proofs.«421766_j4561255269295_1_alg».proof.Proof.Spec
import proofs.«421766_j4561255269295_1_alg».proof.Proof.Rows
import proofs.«421766_j4561255269295_1_alg».proof.Proof.KI.VGin
import Idealize.ShloMosaic.Lib.ValueLayout
import Idealize.ShloMosaic.Lib.ValueIdxCoords
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open scoped BigOperators

theorem colCast_apply {α : Type} (x : S512.Idx → α) (h : S512.ShapeCasts S512x1) (g : Fin 512) (u : Fin 1) :
    shapeCast S512x1 x h (ix2 g u) = x (ix1 g) :=
  shapeCast_apply x h _ _ (by
    have hu : u.val = 0 := by omega
    rw [Shape.rowMajor_val_two, Shape.rowMajor_val_one]
    show g.val = g.val * 1 + u.val
    rw [hu, Nat.mul_one, Nat.add_zero])

theorem colBcast_apply {α : Type} (x : S512x1.Idx → α) (h : S512x1.Broadcasts S512x2) (g : Fin 512) (c : Fin 2) :
    broadcastTo S512x2 x h (ix2 g c) = x (ix2 g (0 : Fin 1)) := by
  refine broadcastTo_apply x h (ix2 g c) (ix2 g (0 : Fin 1)) fun ax => ?_
  match ax with
  | ⟨0, _⟩ =>
    show g.val = if (512 : Nat) = 1 then 0 else g.val
    rw [if_neg (by decide)]
  | ⟨1, _⟩ => rfl

theorem lift_row (g : Fin 512) (k : Fin 2) : reduces_S512x2_S512.lift (ix1 g) k = ix2 g k :=
  Shape.idx_ext₂ rfl rfl

theorem negInf_f32 : Ideal.ofBits .f32 0xFF800000#32 = ⊥ := by simp [Ideal.ofBits, Ideal.ieee]

theorem fold_max_two (b : EReal) (f : Fin 2 → EReal) : (Finset.univ : Finset (Fin 2)).fold max b f = max (f 0) (max (f 1) b) := by
  rw [show (Finset.univ : Finset (Fin 2)) = {0, 1} from by decide, Finset.fold_insert (by decide), Finset.fold_singleton]

theorem rowMax_apply (l : FVec Ideal S512x2 .f32) (g : Fin 512) :
    multiReduction (F := Ideal) .maximumf [1] S512 l 0xFF800000#32 reduces_S512x2_S512 (.inl rfl) rfl (ix1 g) = Spec.rowMax l g := by
  refine (Ideal.multiReduction_maximumf_single (a := 1) l 0xFF800000#32 reduces_S512x2_S512 (.inl rfl) rfl (ix1 g)).trans ?_
  refine (fold_max_two (Ideal.ofBits .f32 0xFF800000#32) (fun k : Fin 2 => l (reduces_S512x2_S512.lift (ix1 g) k))).trans ?_
  show max (l (reduces_S512x2_S512.lift (ix1 g) (0 : Fin 2))) (max (l (reduces_S512x2_S512.lift (ix1 g) (1 : Fin 2))) (Ideal.ofBits .f32 0xFF800000#32)) = _
  rw [lift_row, lift_row, negInf_f32, max_bot_right]
  rfl

theorem rowSum_apply (e : FVec Ideal S512x2 .f32) (g : Fin 512) :
    multiReduction (F := Ideal) .add [1] S512 e 0x00000000#32 reduces_S512x2_S512 (.inl rfl) rfl (ix1 g) = ∑ c' : Fin 2, e (ix2 g c') := by
  refine (Ideal.multiReduction_add_single (a := 1) e 0x00000000#32 reduces_S512x2_S512 (.inl rfl) rfl (ix1 g)).trans ?_
  show ∑ k : Fin 2, e (reduces_S512x2_S512.lift (ix1 g) k) = _
  exact Finset.sum_congr rfl fun k _ => by rw [lift_row]

theorem log_at {s : Shape} (x : FVec Ideal s .f32) (i : s.Idx) : log x i = Ideal.log (x i) := rfl
theorem exp_at {s : Shape} (x : FVec Ideal s .f32) (i : s.Idx) : exp x i = Ideal.exp (x i) := rfl

-- The logits' payload at (g, c) is the two-layer readout of the loaded blocks.
theorem pay1_apply (v0 : Vec Ideal S512x192 .f32) (v2 : Vec Ideal S192x192 .f32) (v6 : Vec Ideal S1x192 .f32)
    (v12 : Vec Ideal S192x2 .f32) (v16 : Vec Ideal S1x2 .f32) (g : Fin 512) (c : Fin 2) :
    k4_pay1 (F := Ideal) v0 v2 v6 v12 v16 (ix2 g c) = Spec.logitsAt v0 v2 (Spec.row v6) v12 (Spec.row v16) g c := by
  unfold k4_pay1 Spec.logitsAt Spec.readHidAt
  simp only [shapeCast_self, addf_apply, maximumf_apply, truncf_apply, broadcast_apply, broadcastTo_1b_ab_apply,
    mm_apply dot_S512x192_S192x2_S512x2_1_0_0_1_n_n rfl, mm_apply dot_S512x192_S192x192_S512x192_1_0_0_1_n_n rfl, ofBits_zero, Spec.row_apply]

-- The log-softmax's payload at (g, c) is the row-wise log-softmax of the logits' payload.
theorem pay2_apply (v0 : Vec Ideal S512x192 .f32) (v2 : Vec Ideal S192x192 .f32) (v6 : Vec Ideal S1x192 .f32)
    (v12 : Vec Ideal S192x2 .f32) (v16 : Vec Ideal S1x2 .f32) (g : Fin 512) (c : Fin 2) :
    k4_pay2 (F := Ideal) v0 v2 v6 v12 v16 (ix2 g c) = Spec.logsmAt (k4_pay1 (F := Ideal) v0 v2 v6 v12 v16) g c := by
  unfold k4_pay2
  generalize k4_pay1 (F := Ideal) v0 v2 v6 v12 v16 = l
  unfold Spec.logsmAt
  rw [subf_apply, subf_apply, colBcast_apply, colBcast_apply, colCast_apply, rowMax_apply, log_at, colCast_apply, rowSum_apply]
  refine congrArg (fun z => l (ix2 g c) - Spec.rowMax l g - Ideal.log z) (Finset.sum_congr rfl fun c' _ => ?_)
  rw [exp_at, subf_apply, colBcast_apply, colCast_apply, rowMax_apply]

theorem idx4 : ∀ (w : Fin cfg4.W) (t : Fin cfg4.N) (a : Fin (cfg4.win w).shape.rank), (cfg4.win w).index t a = 0 :=
  (by decide +kernel : ∀ (w : Fin 7) (t : Fin grid4.N) (a : Fin (win4 w).shape.rank), (win4 w).index t a = 0)

section Arrays
variable (V : (c : Dev nD) → (b : Ref sig .tc) → Buf (Elt Ideal) ((c : Thread nD τ).loc b))

abbrev lg4 (c : Dev nD) : FVec Ideal S512x2 .f32 :=
  Spec.logits (V c main_v57) (V c main_arg25) (Spec.row (V c main_v58)) (V c main_arg27) (Spec.row (V c main_v59))

theorem iblk4_0 (c : Dev nD) (t : Fin cfg4.N) : (iblk4 (F := Ideal) V c 0 t : Vec Ideal S512x192 .f32) = V c main_v57 :=
  funext fun y => congrArg (V c main_v57) (funext fun a => Fin.ext (win4_0.rect_emb_val_of_index_zero t a (idx4 0 t a) y))
theorem iblk4_1 (c : Dev nD) (t : Fin cfg4.N) : (iblk4 (F := Ideal) V c 1 t : Vec Ideal S192x192 .f32) = V c main_arg25 :=
  funext fun y => congrArg (V c main_arg25) (funext fun a => Fin.ext (win4_1.rect_emb_val_of_index_zero t a (idx4 1 t a) y))
theorem iblk4_2 (c : Dev nD) (t : Fin cfg4.N) : (iblk4 (F := Ideal) V c 2 t : Vec Ideal S1x192 .f32) = V c main_v58 :=
  funext fun y => congrArg (V c main_v58) (funext fun a => Fin.ext (win4_2.rect_emb_val_of_index_zero t a (idx4 2 t a) y))
theorem iblk4_3 (c : Dev nD) (t : Fin cfg4.N) : (iblk4 (F := Ideal) V c 3 t : Vec Ideal S192x2 .f32) = V c main_arg27 :=
  funext fun y => congrArg (V c main_arg27) (funext fun a => Fin.ext (win4_3.rect_emb_val_of_index_zero t a (idx4 3 t a) y))
theorem iblk4_4 (c : Dev nD) (t : Fin cfg4.N) : (iblk4 (F := Ideal) V c 4 t : Vec Ideal S1x2 .f32) = V c main_v59 :=
  funext fun y => congrArg (V c main_v59) (funext fun a => Fin.ext (win4_4.rect_emb_val_of_index_zero t a (idx4 4 t a) y))

theorem flushed4_5 (c : Dev nD) (t : Fin cfg4.N) :
    (dat4 (F := Ideal) V c).flushed 5 t = ((cfg4.win 5).blk t).view.read (Elt Ideal) (lg4 V c) := by
  show (cfg4.win 5).cut (grid4.coords t) ((dat4 V c).after 5 t) = _
  rw [after4_5, iblk4_0 V c t, iblk4_1 V c t, iblk4_2 V c t, iblk4_3 V c t, iblk4_4 V c t]
  unfold out4_5
  rw [View.canon_unit_zero zero2]
  simp only [View.ld_unit_zero (S := S512x192) zero2, View.ld_unit_zero (S := S192x192) zero2, View.ld_unit_zero (S := S1x192) zero2,
    View.ld_unit_zero (S := S192x2) zero2, View.ld_unit_zero (S := S1x2) zero2]
  funext y
  show k4_pay1 (F := Ideal) _ _ _ _ _ y = lg4 V c (((cfg4.win 5).blk t).view.emb y)
  rw [show ((cfg4.win 5).blk t).view.emb y = y from funext fun a => Fin.ext (win4_5.rect_emb_val_of_index_zero t a (idx4 5 t a) y)]
  obtain ⟨g, k, rfl⟩ : ∃ (g : Fin 512) (k : Fin 2), y = ix2 g k := ⟨y 0, y 1, eq_ix2 y⟩
  exact pay1_apply _ _ _ _ _ g k

theorem flushed4_6 (c : Dev nD) (t : Fin cfg4.N) :
    (dat4 (F := Ideal) V c).flushed 6 t = ((cfg4.win 6).blk t).view.read (Elt Ideal) (Spec.logsm (lg4 V c)) := by
  show (cfg4.win 6).cut (grid4.coords t) ((dat4 V c).after 6 t) = _
  rw [after4_6, iblk4_0 V c t, iblk4_1 V c t, iblk4_2 V c t, iblk4_3 V c t, iblk4_4 V c t]
  unfold out4_6
  rw [View.canon_unit_zero zero2]
  simp only [View.ld_unit_zero (S := S512x192) zero2, View.ld_unit_zero (S := S192x192) zero2, View.ld_unit_zero (S := S1x192) zero2,
    View.ld_unit_zero (S := S192x2) zero2, View.ld_unit_zero (S := S1x2) zero2]
  funext y
  show k4_pay2 (F := Ideal) _ _ _ _ _ y = Spec.logsm (lg4 V c) (((cfg4.win 6).blk t).view.emb y)
  rw [show ((cfg4.win 6).blk t).view.emb y = y from funext fun a => Fin.ext (win4_6.rect_emb_val_of_index_zero t a (idx4 6 t a) y)]
  obtain ⟨g, k, rfl⟩ : ∃ (g : Fin 512) (k : Fin 2), y = ix2 g k := ⟨y 0, y 1, eq_ix2 y⟩
  refine (pay2_apply _ _ _ _ _ g k).trans (congrArg (fun l => Spec.logsmAt l g k) (funext fun i => ?_))
  obtain ⟨g', k', rfl⟩ : ∃ (g' : Fin 512) (k' : Fin 2), i = ix2 g' k' := ⟨i 0, i 1, eq_ix2 i⟩
  exact pay1_apply _ _ _ _ _ g' k'

end Arrays

theorem cover4_5 (i : S512x2.Idx) : ∃ t : Fin cfg4.N, (cfg4.win 5).flush t = true ∧ i ∈ ((cfg4.win 5).blk t).view.set := by
  refine ⟨t4_0, flush4_5 _, ?_⟩
  show i ∈ ((View.whole main_v60_0).slice (win4_5.rect t4_0)).set
  rw [View.set_slice_whole]
  exact View.mem_set_unit_zero (S := S512x2) (funext fun a => (congrArg (· * _) (idx4 5 t4_0 a)).trans (Nat.zero_mul _)) _ i

theorem cover4_6 (i : S512x2.Idx) : ∃ t : Fin cfg4.N, (cfg4.win 6).flush t = true ∧ i ∈ ((cfg4.win 6).blk t).view.set := by
  refine ⟨t4_0, flush4_6 _, ?_⟩
  show i ∈ ((View.whole main_v60_1).slice (win4_6.rect t4_0)).set
  rw [View.set_slice_whole]
  exact View.mem_set_unit_zero (S := S512x2) (funext fun a => (congrArg (· * _) (idx4 6 t4_0 a)).trans (Nat.zero_mul _)) _ i

-- The logits' array after the region: the readout of the region's input arrays.
theorem final4_5 (V : (c : Dev nD) → (b : Ref sig .tc) → Buf (Elt Ideal) ((c : Thread nD τ).loc b)) (c : Dev nD) :
    ((dat4 (F := Ideal) V c).arrAt 5 cfg4.N : FVec Ideal S512x2 .f32) = Spec.logits (V c main_v57) (V c main_arg25) (Spec.row (V c main_v58)) (V c main_arg27) (Spec.row (V c main_v59)) :=
  (dat4 (F := Ideal) V c).arrAt_eq_of_cover 5 _ (fun t _ => flushed4_5 V c t) cover4_5

-- The log-softmax's array after the region: the row-wise log-softmax of that readout.
theorem final4_6 (V : (c : Dev nD) → (b : Ref sig .tc) → Buf (Elt Ideal) ((c : Thread nD τ).loc b)) (c : Dev nD) :
    ((dat4 (F := Ideal) V c).arrAt 6 cfg4.N : FVec Ideal S512x2 .f32) = Spec.logsm (Spec.logits (V c main_v57) (V c main_arg25) (Spec.row (V c main_v58)) (V c main_arg27) (Spec.row (V c main_v59))) :=
  (dat4 (F := Ideal) V c).arrAt_eq_of_cover 6 _ (fun t _ => flushed4_6 V c t) cover4_6

end Cert.KernelIdeal.Val

end
-- ==== Proof.KI.Value.lean ====
import proofs.«421766_j4561255269295_1_alg».proof.Proof.KI.VChain
import proofs.«421766_j4561255269295_1_alg».proof.Proof.KI.V0
import proofs.«421766_j4561255269295_1_alg».proof.Proof.KI.V1
import proofs.«421766_j4561255269295_1_alg».proof.Proof.KI.V2
import proofs.«421766_j4561255269295_1_alg».proof.Proof.KI.V3
import proofs.«421766_j4561255269295_1_alg».proof.Proof.KI.V4
import proofs.«421766_j4561255269295_1_alg».proof.Proof.KI.Frame
import proofs.«421766_j4561255269295_1_alg».proof.Proof.PoolOf

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Net
variable (m : (ℓ : Loc nD τ sig) → Buf (Elt Ideal) ℓ) (c : Dev nD)

def H1 : FVec Ideal S50000x64 .f32 :=
  Spec.gin3 (m ((c.tc : Thread nD τ).loc main_arg0)) (aggK3 (m ((c.tc : Thread nD τ).loc main_arg0)) (srcK (m ((c.tc : Thread nD τ).loc main_arg29))) (dstK (m ((c.tc : Thread nD τ).loc main_arg29))))
    (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

def H2 : FVec Ideal S50000x64 .f32 :=
  Spec.gin64 (H1 m c) (aggK64 (H1 m c) (srcK (m ((c.tc : Thread nD τ).loc main_arg29))) (dstK (m ((c.tc : Thread nD τ).loc main_arg29))))
    (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

def H3 : FVec Ideal S50000x64 .f32 :=
  Spec.gin64 (H2 m c) (aggK64 (H2 m c) (srcK (m ((c.tc : Thread nD τ).loc main_arg29))) (dstK (m ((c.tc : Thread nD τ).loc main_arg29))))
    (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))

def P : FVec Ideal S512x192 .f32 := Spec.pool (H1 m c) (H2 m c) (H3 m c) (m ((c.tc : Thread nD τ).loc main_arg30))

def L : FVec Ideal S512x2 .f32 := Spec.logits (P m c) (m ((c.tc : Thread nD τ).loc main_arg25)) (m ((c.tc : Thread nD τ).loc main_arg26)) (m ((c.tc : Thread nD τ).loc main_arg27)) (m ((c.tc : Thread nD τ).loc main_arg28))

-- Each region leaves the specification's function of what it was entered with; its operands are read off the chain.
theorem o2_eq : (o2 (F := Ideal) m c : FVec Ideal S50000x64 .f32) = H1 m c :=
  (final0 (fun c b => W1 m c b) c).trans (by
    rw [W1_v14, W1_v15, W1_v16, W1_v17, W1_v18, W1_v19, W1_v20, W1_of m c main_arg0 (by decide), W1_of m c main_arg1 (by decide),
      W1_of m c main_arg7 (by decide)]
    rfl)

theorem o4_eq : (o4 (F := Ideal) m c : FVec Ideal S50000x64 .f32) = H2 m c :=
  (final1 (fun c b => W3 m c (o2 m c) b) c).trans (by
    rw [W3_v21, W3_v31, W3_v32, W3_v33, W3_v34, W3_v35, W3_v36, W3_v37, W3_arg m c _ main_arg9 (by decide),
      W3_arg m c _ main_arg15 (by decide), o2_eq]
    rfl)

theorem o6_eq : (o6 (F := Ideal) m c : FVec Ideal S50000x64 .f32) = H3 m c :=
  (final2 (fun c b => W5 m c (o2 m c) (o4 m c) b) c).trans (by
    rw [W5_v38, W5_v48, W5_v49, W5_v50, W5_v51, W5_v52, W5_v53, W5_v54, W5_arg m c _ _ main_arg17 (by decide),
      W5_arg m c _ _ main_arg23 (by decide), o4_eq]
    rfl)

theorem o8_eq : (o8 (F := Ideal) m c : FVec Ideal S512x192 .f32) = P m c :=
  (final3 (fun c b => W7 m c (o2 m c) (o4 m c) (o6 m c) b) c).trans (by
    rw [W7_v56, W7_v4, o2_eq, o4_eq, o6_eq]
    exact Spec.poolOf_eq_pool _ _ (H1 m c) (H2 m c) (H3 m c) (m ((c.tc : Thread nD τ).loc main_arg30))
      (fun n d => catK_apply (H1 m c) (H2 m c) (H3 m c) n d) (fun n => col_apply _ n 0))

-- What the readout region finds, for both of its results.
theorem W9_ops : Spec.logits (W9 m c (o2 m c) (o4 m c) (o6 m c) (o8 m c) main_v57) (W9 m c (o2 m c) (o4 m c) (o6 m c) (o8 m c) main_arg25)
      (Spec.row (W9 m c (o2 m c) (o4 m c) (o6 m c) (o8 m c) main_v58)) (W9 m c (o2 m c) (o4 m c) (o6 m c) (o8 m c) main_arg27)
      (Spec.row (W9 m c (o2 m c) (o4 m c) (o6 m c) (o8 m c) main_v59)) = L m c := by
  rw [W9_v57, W9_v58, W9_v59, W9_arg m c _ _ _ _ main_arg25 (by decide), W9_arg m c _ _ _ _ main_arg27 (by decide), o8_eq]
  rfl

theorem o10a_eq : (o10a (F := Ideal) m c : FVec Ideal S512x2 .f32) = L m c :=
  (final4_5 (fun c b => W9 m c (o2 m c) (o4 m c) (o6 m c) (o8 m c) b) c).trans (W9_ops m c)

theorem o10b_eq : (o10b (F := Ideal) m c : FVec Ideal S512x2 .f32) = Spec.logsm (L m c) :=
  (final4_6 (fun c b => W9 m c (o2 m c) (o4 m c) (o6 m c) (o8 m c) b) c).trans (congrArg Spec.logsm (W9_ops m c))

end Net

theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v60_0) = L m c
      ∧ r.2.mem ((c.tc : Thread nD τ).loc main_v60_1) = Spec.logsm (L m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c => ⟨(h c).1.trans (o10a_eq m c), (h c).2.1.trans (o10b_eq m c), (h c).2.2⟩)
    (Hand.run_named (F := Ideal) m ρ)

end Cert.KernelIdeal.Val

end
-- ==== Proof.RefImports.lean ====
import proofs.«421766_j4561255269295_1_alg».proof.Proof.Gen.ReferenceIdeal.Run
import proofs.«421766_j4561255269295_1_alg».proof.Proof.Gen.ReferenceIdeal.Read
-- ==== Proof.Ref.Readout.lean ====
import proofs.«421766_j4561255269295_1_alg».proof.Proof.Gen.ReferenceIdeal
import proofs.«421766_j4561255269295_1_alg».proof.Proof.Spec
import Idealize.ShloMosaic.Lib.Pipeline.Value
import Idealize.ShloMosaic.Lib.ValueIdx
import Idealize.ShloMosaic.Lib.StackMember
import Idealize.ShloMosaic.PureOps.Ideal.Laws

noncomputable section

open scoped BigOperators

namespace Cert.ReferenceIdeal.RefVal

open Cert.ReferenceIdeal Cert.ReferenceIdeal.Gen Idealize.ShloMosaic Idealize.ShloMosaic.ValueIdx

theorem bcastRow_apply {α : Type} {R n : Nat} (hn : n ≠ 1)
    (h1 : (⟨1, ![n]⟩ : Shape).BroadcastsInDim ⟨2, ![1, n]⟩ ![1])
    (h2 : (⟨2, ![1, n]⟩ : Shape).BroadcastsInDim ⟨2, ![R, n]⟩ ![0, 1])
    (v : (⟨1, ![n]⟩ : Shape).Idx → α) (g : Fin R) (k : Fin n) :
    broadcastInDim ⟨2, ![R, n]⟩ ![0, 1] h2 (broadcastInDim ⟨2, ![1, n]⟩ ![1] h1 v) (ix2 g k) = v (ix1 k) := by
  rw [broadcastInDim_apply ![0, 1] h2 _ (ix2 g k) (ix2 (0 : Fin 1) k) (fun a => by
    match a with
    | ⟨0, _⟩ => show (0 : Nat) = if (1 : Nat) = 1 then 0 else g.val; rw [if_pos rfl]
    | ⟨1, _⟩ => show k.val = if n = 1 then 0 else k.val; rw [if_neg hn])]
  exact broadcastInDim_apply ![1] h1 v (ix2 (0 : Fin 1) k) (ix1 k) (fun a => by
    match a with
    | ⟨0, _⟩ => show k.val = if n = 1 then 0 else k.val; rw [if_neg hn])

def refLogits (p : FVec Ideal S512x192 .f32) (w1 : FVec Ideal S192x192 .f32) (b1 : FVec Ideal S192 .f32)
    (w2 : FVec Ideal S192x2 .f32) (b2 : FVec Ideal S2 .f32) : FVec Ideal S512x2 .f32 :=
  addf (Host.dotGeneral dot_S512x192_S192x2_S512x2_1_0_0_1_n_n none
      (maximumf (addf (Host.dotGeneral dot_S512x192_S192x192_S512x192_1_0_0_1_n_n none p w1)
          (broadcastInDim S512x192 ![0, 1] bcast_S1x192_S512x192_0_1 (broadcastInDim S1x192 ![1] bcast_S192_S1x192_1 b1)))
        (broadcastInDim S512x192 ![] bcast_S_S512x192 (constant S_ .f32 0x00000000#32))) w2)
    (broadcastInDim S512x2 ![0, 1] bcast_S1x2_S512x2_0_1 (broadcastInDim S1x2 ![1] bcast_S2_S1x2_1 b2))

theorem bcastCol_apply {α : Type} (v : S512x1.Idx → α) (g : Fin 512) (c : Fin 2) :
    broadcastInDim S512x2 ![0, 1] bcast_S512x1_S512x2_0_1 v (ix2 g c) = v (ix2 g (0 : Fin 1)) :=
  broadcastInDim_apply ![0, 1] bcast_S512x1_S512x2_0_1 v (ix2 g c) (ix2 g (0 : Fin 1)) (fun a => by
    match a with
    | ⟨0, _⟩ => show g.val = if (512 : Nat) = 1 then 0 else g.val; rw [if_neg (by decide)]
    | ⟨1, _⟩ => show (0 : Nat) = if (1 : Nat) = 1 then 0 else c.val; rw [if_pos rfl])

theorem toCol_apply {α : Type} (v : S512.Idx → α) (g : Fin 512) :
    broadcastInDim S512x1 ![0] bcast_S512_S512x1_0 v (ix2 g (0 : Fin 1)) = v (ix1 g) :=
  broadcastInDim_apply ![0] bcast_S512_S512x1_0 v (ix2 g (0 : Fin 1)) (ix1 g) (fun a => by
    match a with
    | ⟨0, _⟩ => show g.val = if (512 : Nat) = 1 then 0 else g.val; rw [if_neg (by decide)])

def refShift (l : FVec Ideal S512x2 .f32) : FVec Ideal S512x2 .f32 :=
  subf l (broadcastInDim S512x2 ![0, 1] bcast_S512x1_S512x2_0_1 (broadcastInDim S512x1 ![0] bcast_S512_S512x1_0
    (maximumf (broadcastInDim S512 ![] bcast_S_S512 (constant S_ .f32 0xFF800000#32))
      (Host.reduce FloatOps.maximumf l (constant S_ .f32 0xFF800000#32) reducesTo_S512x2_S512_d1 h_S_))))

theorem ofBits_neg_inf_f32 : Ideal.ofBits .f32 0xFF800000#32 = ⊥ := by simp [Ideal.ofBits, Ideal.ieee]

theorem fold_maximumf_fin2 (b : EReal) (f : Fin 2 → EReal) :
    (Finset.univ : Finset (Fin 2)).fold (FloatOps.maximumf (F := Ideal) (φ := .f32)) b f = max (f 0) (max (f 1) b) := by
  rw [show (Finset.univ : Finset (Fin 2)) = {0, 1} from by decide, Finset.fold_insert (by decide), Finset.fold_singleton]
  rfl

theorem refShift_apply (l : FVec Ideal S512x2 .f32) (g : Fin 512) (c : Fin 2) :
    refShift l (ix2 g c) = l (ix2 g c) - max (l (ix2 g 0)) (l (ix2 g 1)) := by
  unfold refShift
  show l (ix2 g c) - broadcastInDim (s := S512x1) S512x2 ![0, 1] bcast_S512x1_S512x2_0_1 _ (ix2 g c) = _
  rw [bcastCol_apply, toCol_apply]
  show l (ix2 g c) - max (Ideal.ofBits .f32 0xFF800000#32)
      (Host.reduce FloatOps.maximumf l (constant S_ .f32 0xFF800000#32) reducesTo_S512x2_S512_d1 h_S_ (ix1 g)) = _
  have hR : S512x2.Reduces [1] S512 := by decide
  have hl : ∀ k : Fin 2, hR.lift (ix1 g) k = ix2 g k := fun k => funext fun a => Fin.ext (by
    match a with
    | ⟨0, _⟩ => rfl
    | ⟨1, _⟩ => rfl)
  have e : (Finset.univ : Finset (Fin 2)).fold (FloatOps.maximumf (F := Ideal) (φ := .f32))
      (Ideal.ofBits .f32 0xFF800000#32) (fun k => l (ix2 g k)) = max (l (ix2 g 0)) (l (ix2 g 1)) := by
    rw [fold_maximumf_fin2, ofBits_neg_inf_f32, max_bot_right]
  have key : Host.reduce FloatOps.maximumf l (constant S_ .f32 0xFF800000#32) reducesTo_S512x2_S512_d1 h_S_ (ix1 g)
      = max (l (ix2 g 0)) (l (ix2 g 1)) := by
    rw [Host.reduce_eq_fold_single FloatOps.maximumf l _ reducesTo_S512x2_S512_d1 hR h_S_ (ix1 g)]
    exact (Finset.fold_congr (g := fun k : Fin 2 => l (ix2 g k)) (fun k _ => congrArg l (hl k))).trans e
  rw [key, ofBits_neg_inf_f32, max_bot_left]

def refLogSoftmax (l : FVec Ideal S512x2 .f32) : FVec Ideal S512x2 .f32 :=
  subf (refShift l) (broadcastInDim S512x2 ![0, 1] bcast_S512x1_S512x2_0_1 (Host.log (broadcastInDim S512x1 ![0] bcast_S512_S512x1_0
    (Host.reduceAdd (Host.exp (refShift l)) (constant S_ .f32 0x00000000#32) reducesTo_S512x2_S512_d1 h_S_))))

theorem refLogits_eq (p : FVec Ideal S512x192 .f32) (w1 : FVec Ideal S192x192 .f32) (b1 : FVec Ideal S192 .f32)
    (w2 : FVec Ideal S192x2 .f32) (b2 : FVec Ideal S2 .f32) :
    refLogits p w1 b1 w2 b2 = Spec.logits p w1 b1 w2 b2 := by
  funext i
  obtain ⟨g, c, rfl⟩ : ∃ (g : Fin 512) (c : Fin 2), i = ix2 g c := ⟨i 0, i 1, eq_ix2 i⟩
  rw [Spec.logits_apply]
  show Host.dotGeneral (DotDims.plain 512 192 2) none _ w2 (ix2 g c)
      + broadcastInDim S512x2 ![0, 1] bcast_S1x2_S512x2_0_1 (broadcastInDim S1x2 ![1] bcast_S2_S1x2_1 b2) (ix2 g c) = _
  rw [bcastRow_apply (by decide) bcast_S2_S1x2_1 bcast_S1x2_S512x2_0_1 b2 g c, StackMember.dotGeneral_plain_apply]
  refine congrArg (· + b2 (ix1 c)) (Finset.sum_congr rfl fun k _ => congrArg (· * w2 (ix2 k c)) ?_)
  show max (Host.dotGeneral (DotDims.plain 512 192 192) none p w1 (ix2 g k)
      + broadcastInDim S512x192 ![0, 1] bcast_S1x192_S512x192_0_1 (broadcastInDim S1x192 ![1] bcast_S192_S1x192_1 b1) (ix2 g k))
      (Ideal.ofBits .f32 0x00000000#32) = _
  rw [bcastRow_apply (by decide) bcast_S192_S1x192_1 bcast_S1x192_S512x192_0_1 b1 g k, Ideal.ofBits_zero_f32,
    StackMember.dotGeneral_plain_apply]
  rfl

theorem refLogSoftmax_eq (l : FVec Ideal S512x2 .f32) : refLogSoftmax l = Spec.logsm l := by
  funext i
  obtain ⟨g, c, rfl⟩ : ∃ (g : Fin 512) (c : Fin 2), i = ix2 g c := ⟨i 0, i 1, eq_ix2 i⟩
  have hR : S512x2.Reduces [1] S512 := by decide
  have hl : ∀ k : Fin 2, hR.lift (ix1 g) k = ix2 g k := fun k => funext fun a => Fin.ext (by
    match a with
    | ⟨0, _⟩ => rfl
    | ⟨1, _⟩ => rfl)
  have key : Host.reduceAdd (Host.exp (refShift l)) (constant S_ .f32 0x00000000#32) reducesTo_S512x2_S512_d1 h_S_ (ix1 g)
      = ∑ c' : Fin 2, Ideal.exp (refShift l (ix2 g c')) := by
    simp only [Host.reduceAdd, Ideal.hostReduceAdd_def]
    rw [Ideal.hostReduceAdd_single reducesTo_S512x2_S512_d1 hR]
    refine (congrArg (· + _) Ideal.ofBits_zero_f32).trans ((zero_add _).trans ?_)
    exact Finset.sum_congr rfl fun k _ => congrArg (fun i => Ideal.exp (refShift l i)) (hl k)
  unfold refLogSoftmax
  show refShift l (ix2 g c) - broadcastInDim (s := S512x1) S512x2 ![0, 1] bcast_S512x1_S512x2_0_1 _ (ix2 g c) = _
  rw [bcastCol_apply]
  show refShift l (ix2 g c) - Ideal.log (broadcastInDim (s := S512) S512x1 ![0] bcast_S512_S512x1_0 _ (ix2 g (0 : Fin 1))) = _
  rw [toCol_apply, key, Spec.logsm_apply]
  simp only [refShift_apply]
  rfl

end Cert.ReferenceIdeal.RefVal

end
-- ==== Proof.Ref.Gin.lean ====
import proofs.«421766_j4561255269295_1_alg».proof.Proof.Ref.Readout

noncomputable section

open scoped BigOperators

namespace Cert.ReferenceIdeal.RefVal

open Cert.ReferenceIdeal Cert.ReferenceIdeal.Gen Idealize.ShloMosaic Idealize.ShloMosaic.ValueIdx

def rowB (v : FVec Ideal S64 .f32) : FVec Ideal S50000x64 .f32 :=
  broadcastInDim S50000x64 ![0, 1] bcast_S1x64_S50000x64_0_1 (broadcastInDim S1x64 ![1] bcast_S64_S1x64_1 v)

theorem rowB_apply (v : FVec Ideal S64 .f32) (n : Fin 50000) (k : Fin 64) : rowB v (ix2 n k) = v (ix1 k) :=
  bcastRow_apply (by decide) _ _ v n k

-- One GIN layer on K input features: (x + a) W1 + b1, normalised by the stored statistics, clamped, then W2, b2 and a clamp.
def refGin {K : Nat} (x a : FVec Ideal ⟨2, ![50000, K]⟩ .f32) (w1 : FVec Ideal ⟨2, ![K, 64]⟩ .f32) (b1 g bb mm v : FVec Ideal S64 .f32)
    (w2 : FVec Ideal S64x64 .f32) (b2 : FVec Ideal S64 .f32) : FVec Ideal S50000x64 .f32 :=
  maximumf (addf (Host.dotGeneral (DotDims.plain 50000 64 64) none
      (maximumf (addf (mulf (mulf (subf (addf (Host.dotGeneral (DotDims.plain 50000 K 64) none (addf x a) w1) (rowB b1)) (rowB mm))
          (rowB (Host.rsqrt (addf v (broadcastInDim S64 ![] bcast_S_S64 (constant S_ .f32 0x3727C5AC#32)))))) (rowB g)) (rowB bb))
        (broadcastInDim S50000x64 ![] bcast_S_S50000x64 (constant S_ .f32 0x00000000#32))) w2) (rowB b2))
    (broadcastInDim S50000x64 ![] bcast_S_S50000x64 (constant S_ .f32 0x00000000#32))

-- Read at node n and feature j, each broadcast is its vector's entry and each contraction the sum over its coordinate.
theorem refGin_eq {K : Nat} (x a : FVec Ideal ⟨2, ![50000, K]⟩ .f32) (w1 : FVec Ideal ⟨2, ![K, 64]⟩ .f32) (b1 g bb mm v : FVec Ideal S64 .f32)
    (w2 : FVec Ideal S64x64 .f32) (b2 : FVec Ideal S64 .f32) :
    refGin x a w1 b1 g bb mm v w2 b2 = fun i => Spec.ginAt x a w1 b1 g bb mm v w2 b2 (i 0) (i 1) := by
  funext i
  obtain ⟨n, j, rfl⟩ : ∃ (n : Fin 50000) (j : Fin 64), i = ix2 n j := ⟨i 0, i 1, eq_ix2 i⟩
  show max (Host.dotGeneral (DotDims.plain 50000 64 64) none _ w2 (ix2 n j) + rowB b2 (ix2 n j)) (Ideal.ofBits .f32 0x00000000#32) = _
  rw [rowB_apply, Ideal.ofBits_zero_f32, StackMember.dotGeneral_plain_apply]
  refine congrArg (max · 0) (congrArg (· + b2 (ix1 j)) (Finset.sum_congr rfl fun k _ => congrArg (· * w2 (ix2 k j)) ?_))
  show max ((Host.dotGeneral (DotDims.plain 50000 K 64) none (addf x a) w1 (ix2 n k) + rowB b1 (ix2 n k) - rowB mm (ix2 n k))
      * rowB _ (ix2 n k) * rowB g (ix2 n k) + rowB bb (ix2 n k)) (Ideal.ofBits .f32 0x00000000#32) = _
  rw [rowB_apply, rowB_apply, rowB_apply, rowB_apply, rowB_apply, Ideal.ofBits_zero_f32, StackMember.dotGeneral_plain_apply]
  rfl

end Cert.ReferenceIdeal.RefVal

end
-- ==== Proof.Ref.Pool.lean ====
import proofs.«421766_j4561255269295_1_alg».proof.Proof.Gen.ReferenceIdeal
import proofs.«421766_j4561255269295_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefVal

open Cert.ReferenceIdeal Cert.ReferenceIdeal.Gen Idealize.ShloMosaic Idealize.ShloMosaic.ValueIdx

abbrev dPool : ScatterDims S512x64 S50000x1 S50000x64 := scatter_S512x64_S50000x1_S50000x64_1_0_0_1

theorem dPool_siIdx (j : S50000x64.Idx) (c : Fin dPool.scatterDimsToOperandDims.length) :
    dPool.siIdx j c = ix2 (j 0) (0 : Fin 1) := by
  funext b
  match b with
  | ⟨0, _⟩ => rfl
  | ⟨1, _⟩ =>
    apply Fin.ext
    unfold ScatterDims.siIdx
    rw [dif_pos (show ((⟨1, by decide⟩ : Fin S50000x1.rank).val = dPool.indexVectorDim) from rfl)]
    have := c.isLt
    show c.val = 0
    have h1 : dPool.scatterDimsToOperandDims.length = 1 := rfl
    omega

theorem dPool_start0 (j : S50000x64.Idx) (idx : IVec S50000x1 32) :
    dPool.start j idx 0 = (idx (ix2 (j 0) (0 : Fin 1))).toInt := by
  unfold ScatterDims.start
  rw [dif_pos (show (0 : Fin S512x64.rank) ∈ dPool.scatterDimsToOperandDims by decide)]
  rw [dPool_siIdx]
  rfl

theorem dPool_start1 (j : S50000x64.Idx) (idx : IVec S50000x1 32) :
    dPool.start j idx 1 = 0 := by
  unfold ScatterDims.start
  rw [dif_neg (show ¬ (1 : Fin S512x64.rank) ∈ dPool.scatterDimsToOperandDims by decide)]

theorem dPool_window0 (j : S50000x64.Idx) : dPool.window j 0 = 0 := by
  unfold ScatterDims.window
  rw [dif_neg (show ¬ (0 : Fin S512x64.rank) ∈ dPool.sKept by decide)]

theorem dPool_window1 (j : S50000x64.Idx) : dPool.window j 1 = (j 1).val := by
  unfold ScatterDims.window
  rw [dif_pos (show (1 : Fin S512x64.rank) ∈ dPool.sKept by decide)]
  rfl

theorem dPool_resultIdx_iff (j : S50000x64.Idx) (idx : IVec S50000x1 32) (i : S512x64.Idx) :
    dPool.resultIdx? j idx = some i ↔ (idx (ix2 (j 0) (0 : Fin 1))).toInt = ((i 0).val : Int) ∧ (j 1).val = (i 1).val := by
  have hs0 := dPool_start0 j idx
  have hs1 := dPool_start1 j idx
  have hw0 := dPool_window0 j
  have hw1 := dPool_window1 j
  have hi0 : (i 0).val < 512 := (i 0).isLt
  have hi1 : (i 1).val < 64 := (i 1).isLt
  have hj1 : (j 1).val < 64 := (j 1).isLt
  unfold ScatterDims.resultIdx?
  constructor
  · intro h
    split at h
    · next hc =>
      have e := Option.some.inj h
      have e0 : (dPool.start j idx 0 + dPool.window j 0).toNat = (i 0).val := congrArg (fun f => (f 0).val) e
      have e1 : (dPool.start j idx 1 + dPool.window j 1).toNat = (i 1).val := congrArg (fun f => (f 1).val) e
      have c0 := (hc 0).1
      rw [hs0, hw0] at c0 e0
      rw [hs1, hw1] at e1
      constructor <;> omega
    · exact absurd h (by simp)
  · rintro ⟨h0, h1⟩
    have hc : ∀ a, 0 ≤ dPool.start j idx a + dPool.window j a ∧ dPool.start j idx a + dPool.window j a < S512x64.size a := by
      intro a
      match a with
      | ⟨0, _⟩ =>
        show 0 ≤ dPool.start j idx 0 + dPool.window j 0 ∧ dPool.start j idx 0 + dPool.window j 0 < ((512 : Nat) : Int)
        rw [hs0, hw0, h0]; omega
      | ⟨1, _⟩ =>
        show 0 ≤ dPool.start j idx 1 + dPool.window j 1 ∧ dPool.start j idx 1 + dPool.window j 1 < ((64 : Nat) : Int)
        rw [hs1, hw1]; omega
    rw [dif_pos hc]
    congr 1
    funext a
    apply Fin.ext
    match a with
    | ⟨0, _⟩ =>
      show (dPool.start j idx 0 + dPool.window j 0).toNat = (i 0).val
      rw [hs0, hw0, h0]; omega
    | ⟨1, _⟩ =>
      show (dPool.start j idx 1 + dPool.window j 1).toNat = (i 1).val
      rw [hs1, hw1]; omega

def refSeg (h : FVec Ideal S50000x64 .f32) (b : IVec S50000 32) : FVec Ideal S512x64 .f32 :=
  Host.scatterAdd scatter_S512x64_S50000x1_S50000x64_1_0_0_1
    (broadcastInDim S512x64 ![] bcast_S_S512x64 (constant S_ .f32 0x00000000#32))
    (broadcastInDim S50000x1 ![0] bcast_S50000_S50000x1_0 b) h

theorem refSeg_apply (h : FVec Ideal S50000x64 .f32) (b : IVec S50000 32) (g : Fin 512) (c : Fin 64) :
    refSeg h b (ix2 g c) = ∑ n : Fin 50000, if (b (ix1 n)).toInt = (g.val : Int) then h (ix2 n c) else 0 := by
  have hidx : ∀ n : Fin 50000, (broadcastInDim S50000x1 ![0] bcast_S50000_S50000x1_0 b) (ix2 n (0 : Fin 1)) = b (ix1 n) := by
    intro n
    refine broadcastInDim_apply _ bcast_S50000_S50000x1_0 b _ (ix1 n) (fun a => ?_)
    match a with
    | ⟨0, _⟩ => show n.val = if (50000 : Nat) = 1 then 0 else n.val; rw [if_neg (by decide)]
  show Ideal.hostScatterAdd dPool _ _ h (ix2 g c) = _
  unfold Ideal.hostScatterAdd
  rw [Finset.filter_congr (fun j _ => dPool_resultIdx_iff j _ (ix2 g c))]
  have hz : (broadcastInDim S512x64 ![] bcast_S_S512x64 (constant (F := Ideal) S_ .f32 0x00000000#32)) (ix2 g c) = 0 :=
    Ideal.ofBits_zero_f32
  rw [hz, zero_add, Finset.sum_filter, sum_idx2]
  refine Finset.sum_congr rfl fun n _ => ?_
  rw [Finset.sum_eq_single c]
  · show (if (broadcastInDim S50000x1 ![0] bcast_S50000_S50000x1_0 b (ix2 n (0 : Fin 1))).toInt = (g.val : Int) ∧ c.val = c.val then h (ix2 n c) else 0) = _
    rw [hidx n]
    by_cases hP : (b (ix1 n)).toInt = (g.val : Int)
    · rw [if_pos ⟨hP, rfl⟩, if_pos hP]
    · rw [if_neg (fun hh => hP hh.1), if_neg hP]
  · intro c' _ hne
    rw [if_neg]
    rintro ⟨_, hc⟩
    exact hne (Fin.ext hc)
  · intro hh; exact absurd (Finset.mem_univ c) hh

def refPool (h1 h2 h3 : FVec Ideal S50000x64 .f32) (b : IVec S50000 32) : FVec Ideal S512x192 .f32 :=
  concatenate S512x192 1 [⟨S512x64, refSeg h1 b⟩, ⟨S512x64, refSeg h2 b⟩, ⟨S512x64, refSeg h3 b⟩]
    concatenates_S512x64_S512x64_S512x64_S512x192_d1

theorem cat3_apply (x0 x1 x2 : FVec Ideal S512x64 .f32) (g : Fin 512) (d : Fin 192) (k : Nat) (hk : k < 3)
    (c : Fin 64) (hc : 64 * k + c.val = d.val) :
    concatenate S512x192 1 [⟨S512x64, x0⟩, ⟨S512x64, x1⟩, ⟨S512x64, x2⟩]
        concatenates_S512x64_S512x64_S512x64_S512x192_d1 (ix2 g d)
      = (match k with | 0 => x0 | 1 => x1 | _ => x2) (ix2 g c) := by
  have hi : ∀ b' : Fin S512x64.rank, b'.cast (rfl : S512x64.rank = S512x192.rank) ≠ (1 : Fin S512x192.rank) →
      ((ix2 g c : S512x64.Idx) b').val = ((ix2 g d : S512x192.Idx) (b'.cast rfl)).val := by
    intro b' hb
    match b' with
    | ⟨0, _⟩ => rfl
    | ⟨1, _⟩ => exact absurd rfl hb
  match k, hk with
  | 0, _ =>
    exact concatenate_apply_piece (1 : Fin S512x192.rank) [⟨S512x64, x0⟩, ⟨S512x64, x1⟩, ⟨S512x64, x2⟩] _ (ix2 g d) 0 (show (0 : Nat) < 3 by decide) S512x64 x0 rfl rfl 0 rfl (ix2 g c) hi
      (by show 0 + c.val = d.val; omega)
  | 1, _ =>
    exact concatenate_apply_piece (1 : Fin S512x192.rank) [⟨S512x64, x0⟩, ⟨S512x64, x1⟩, ⟨S512x64, x2⟩] _ (ix2 g d) 1 (show (1 : Nat) < 3 by decide) S512x64 x1 rfl rfl 64 rfl (ix2 g c) hi
      (by show 64 + c.val = d.val; omega)
  | 2, _ =>
    exact concatenate_apply_piece (1 : Fin S512x192.rank) [⟨S512x64, x0⟩, ⟨S512x64, x1⟩, ⟨S512x64, x2⟩] _ (ix2 g d) 2 (show (2 : Nat) < 3 by decide) S512x64 x2 rfl rfl 128 rfl (ix2 g c) hi
      (by show 128 + c.val = d.val; omega)

theorem refPool_apply (h1 h2 h3 : FVec Ideal S50000x64 .f32) (b : IVec S50000 32) (g : Fin 512) (d : Fin 192) :
    refPool h1 h2 h3 b (ix2 g d) = Spec.poolAt h1 h2 h3 b g d := by
  unfold refPool Spec.poolAt
  by_cases hlo : d.val < 64
  · rw [cat3_apply _ _ _ g d 0 (by decide) ⟨d.val, hlo⟩ (by show 64 * 0 + d.val = d.val; omega)]
    show refSeg h1 b (ix2 g ⟨d.val, hlo⟩) = _
    rw [refSeg_apply]
    refine Finset.sum_congr rfl fun n _ => ?_
    rw [Spec.hcat_of_lt h1 h2 h3 n d hlo]
  · by_cases hmid : d.val < 128
    · rw [cat3_apply _ _ _ g d 1 (by decide) ⟨d.val - 64, by omega⟩ (by show 64 * 1 + (d.val - 64) = d.val; omega)]
      show refSeg h2 b (ix2 g ⟨d.val - 64, _⟩) = _
      rw [refSeg_apply]
      refine Finset.sum_congr rfl fun n _ => ?_
      rw [Spec.hcat_of_mid h1 h2 h3 n d (by omega) hmid]
    · have hd : d.val < 192 := d.isLt
      rw [cat3_apply _ _ _ g d 2 (by decide) ⟨d.val - 128, by omega⟩ (by show 64 * 2 + (d.val - 128) = d.val; omega)]
      show refSeg h3 b (ix2 g ⟨d.val - 128, _⟩) = _
      rw [refSeg_apply]
      refine Finset.sum_congr rfl fun n _ => ?_
      rw [Spec.hcat_of_ge h1 h2 h3 n d (by omega)]

theorem refPool_eq (h1 h2 h3 : FVec Ideal S50000x64 .f32) (b : IVec S50000 32) :
    refPool h1 h2 h3 b = Spec.pool h1 h2 h3 b := by
  funext i
  obtain ⟨g, d, rfl⟩ : ∃ (g : Fin 512) (d : Fin 192), i = ix2 g d := ⟨i 0, i 1, eq_ix2 i⟩
  rw [refPool_apply, Spec.pool_apply]

end Cert.ReferenceIdeal.RefVal

end
-- ==== Proof.Ref.Value.lean ====
import proofs.«421766_j4561255269295_1_alg».proof.Proof.RefImports
import proofs.«421766_j4561255269295_1_alg».proof.Proof.Spec
import proofs.«421766_j4561255269295_1_alg».proof.Proof.Ref.Gin
import proofs.«421766_j4561255269295_1_alg».proof.Proof.Ref.Pool
import proofs.«421766_j4561255269295_1_alg».proof.Proof.Ref.Readout

noncomputable section

open scoped BigOperators

namespace Cert.ReferenceIdeal.RefVal

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

def refAgg3 (x : FVec Ideal S50000x3 .f32) (e : IVec S2x1600000 32) : FVec Ideal S50000x3 .f32 :=
  Host.scatterAdd scatter_S50000x3_S1600000x1_S1600000x3_1_0_0_1
    (broadcastInDim S50000x3 ![] bcast_S_S50000x3 (constant S_ .f32 0x00000000#32))
    (broadcastInDim S1600000x1 ![0] bcast_S1600000_S1600000x1_0
      (shapeCast S1600000 (extractStridedSlice S1x1600000 ![1, 0] e slices_S2x1600000_S1x1600000_1_0) shapeCasts_S1x1600000_S1600000))
    (Host.gather gather_S50000x3_S1600000x1_S1600000x3_1_0_n_n_0_1_13 x
      (broadcastInDim S1600000x1 ![0] bcast_S1600000_S1600000x1_0
        (select
          (cmpi .slt
            (shapeCast S1600000 (extractStridedSlice S1x1600000 ![0, 0] e slices_S2x1600000_S1x1600000_0_0) shapeCasts_S1x1600000_S1600000)
            (broadcastInDim S1600000 ![] bcast_S_S1600000 (constantI S_ 32 0#32)))
          (addi
            (shapeCast S1600000 (extractStridedSlice S1x1600000 ![0, 0] e slices_S2x1600000_S1x1600000_0_0) shapeCasts_S1x1600000_S1600000)
            (broadcastInDim S1600000 ![] bcast_S_S1600000 (constantI S_ 32 50000#32)))
          (shapeCast S1600000 (extractStridedSlice S1x1600000 ![0, 0] e slices_S2x1600000_S1x1600000_0_0) shapeCasts_S1x1600000_S1600000))))

def refAgg64 (x : FVec Ideal S50000x64 .f32) (e : IVec S2x1600000 32) : FVec Ideal S50000x64 .f32 :=
  Host.scatterAdd scatter_S50000x64_S1600000x1_S1600000x64_1_0_0_1
    (broadcastInDim S50000x64 ![] bcast_S_S50000x64 (constant S_ .f32 0x00000000#32))
    (broadcastInDim S1600000x1 ![0] bcast_S1600000_S1600000x1_0
      (shapeCast S1600000 (extractStridedSlice S1x1600000 ![1, 0] e slices_S2x1600000_S1x1600000_1_0) shapeCasts_S1x1600000_S1600000))
    (Host.gather gather_S50000x64_S1600000x1_S1600000x64_1_0_n_n_0_1_164 x
      (broadcastInDim S1600000x1 ![0] bcast_S1600000_S1600000x1_0
        (select
          (cmpi .slt
            (shapeCast S1600000 (extractStridedSlice S1x1600000 ![0, 0] e slices_S2x1600000_S1x1600000_0_0) shapeCasts_S1x1600000_S1600000)
            (broadcastInDim S1600000 ![] bcast_S_S1600000 (constantI S_ 32 0#32)))
          (addi
            (shapeCast S1600000 (extractStridedSlice S1x1600000 ![0, 0] e slices_S2x1600000_S1x1600000_0_0) shapeCasts_S1x1600000_S1600000)
            (broadcastInDim S1600000 ![] bcast_S_S1600000 (constantI S_ 32 50000#32)))
          (shapeCast S1600000 (extractStridedSlice S1x1600000 ![0, 0] e slices_S2x1600000_S1x1600000_0_0) shapeCasts_S1x1600000_S1600000))))

def refH1 (m : (ℓ : Loc nD τ sig) → Buf (Elt Ideal) ℓ) (c : Dev nD) : FVec Ideal S50000x64 .f32 :=
  Spec.gin3 (m ((c.tc : Thread nD τ).loc main_arg0)) (refAgg3 (m ((c.tc : Thread nD τ).loc main_arg0)) (m ((c.tc : Thread nD τ).loc main_arg29)))
    (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

def refH2 (m : (ℓ : Loc nD τ sig) → Buf (Elt Ideal) ℓ) (c : Dev nD) : FVec Ideal S50000x64 .f32 :=
  Spec.gin64 (refH1 m c) (refAgg64 (refH1 m c) (m ((c.tc : Thread nD τ).loc main_arg29)))
    (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

def refH3 (m : (ℓ : Loc nD τ sig) → Buf (Elt Ideal) ℓ) (c : Dev nD) : FVec Ideal S50000x64 .f32 :=
  Spec.gin64 (refH2 m c) (refAgg64 (refH2 m c) (m ((c.tc : Thread nD τ).loc main_arg29)))
    (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))

variable (m : (ℓ : Loc nD τ sig) → Buf (Elt Ideal) ℓ) (c : Dev nD)

-- Each stage of the run is the spelled-out layer, pooling or readout on the stages before it; each is the specification's.
theorem res0_eq :
    Cert.ReferenceIdeal.Value.res_main_v130 (F := Ideal) m c
      = Spec.logits (Spec.pool (refH1 m c) (refH2 m c) (refH3 m c) (m ((c.tc : Thread nD τ).loc main_arg30)))
          (m ((c.tc : Thread nD τ).loc main_arg25)) (m ((c.tc : Thread nD τ).loc main_arg26)) (m ((c.tc : Thread nD τ).loc main_arg27)) (m ((c.tc : Thread nD τ).loc main_arg28)) := by
  have h1 : val_main_v39 (F := Ideal) _ _ _ _ _ _ _ _ _ _ = refH1 m c := refGin_eq ..
  have h2 : val_main_v75 (F := Ideal) _ _ _ _ _ _ _ _ _ _ _ _ _ _ _ _ _ _ = refH2 m c :=
    (refGin_eq ..).trans (congrArg (fun y => Spec.gin64 y (refAgg64 y _) _ _ _ _ _ _ _ _) h1)
  have h3 : val_main_v111 (F := Ideal) _ _ _ _ _ _ _ _ _ _ _ _ _ _ _ _ _ _ _ _ _ _ _ _ _ _ = refH3 m c :=
    (refGin_eq ..).trans (congrArg (fun y => Spec.gin64 y (refAgg64 y _) _ _ _ _ _ _ _ _) h2)
  rw [val_main_v130_eq, ← h1, ← h2, ← h3]
  exact (refLogits_eq ..).trans (congrArg (Spec.logits · _ _ _ _) (refPool_eq ..))

theorem res1_eq :
    Cert.ReferenceIdeal.Value.res_main_v131 (F := Ideal) m c
      = Spec.logsm (Spec.logits (Spec.pool (refH1 m c) (refH2 m c) (refH3 m c) (m ((c.tc : Thread nD τ).loc main_arg30)))
          (m ((c.tc : Thread nD τ).loc main_arg25)) (m ((c.tc : Thread nD τ).loc main_arg26)) (m ((c.tc : Thread nD τ).loc main_arg27)) (m ((c.tc : Thread nD τ).loc main_arg28))) := by
  rw [val_main_v131_eq, ← res0_eq, val_main_v130_eq]
  exact refLogSoftmax_eq _

end Cert.ReferenceIdeal.RefVal

end
-- ==== Proof.Bridge.lean ====
import proofs.«421766_j4561255269295_1_alg».proof.Proof.KI.VHost
import proofs.«421766_j4561255269295_1_alg».proof.Proof.Ref.Value

noncomputable section

namespace Cert.Proof.Bridge

open Idealize.ShloMosaic

-- Both programs spell the neighbour sum the same way, so the two terms are one.
theorem agg3_eq (x : FVec Ideal Cert.KernelIdeal.S50000x3 .f32) (ei : IVec Cert.KernelIdeal.S2x1600000 32) :
    Cert.KernelIdeal.Val.aggK3 x (Cert.KernelIdeal.Val.srcK ei) (Cert.KernelIdeal.Val.dstK ei)
      = Cert.ReferenceIdeal.RefVal.refAgg3 x ei := by
  unfold Cert.KernelIdeal.Val.aggK3 Cert.ReferenceIdeal.RefVal.refAgg3 Cert.KernelIdeal.Val.normK Cert.KernelIdeal.Val.srcK Cert.KernelIdeal.Val.dstK
  rfl

theorem agg64_eq (x : FVec Ideal Cert.KernelIdeal.S50000x64 .f32) (ei : IVec Cert.KernelIdeal.S2x1600000 32) :
    Cert.KernelIdeal.Val.aggK64 x (Cert.KernelIdeal.Val.srcK ei) (Cert.KernelIdeal.Val.dstK ei)
      = Cert.ReferenceIdeal.RefVal.refAgg64 x ei := by
  unfold Cert.KernelIdeal.Val.aggK64 Cert.ReferenceIdeal.RefVal.refAgg64 Cert.KernelIdeal.Val.normK Cert.KernelIdeal.Val.srcK Cert.KernelIdeal.Val.dstK
  rfl

end Cert.Proof.Bridge

end
-- ==== Proof.lean ====
import proofs.«421766_j4561255269295_1_alg».proof.Defs
import proofs.«421766_j4561255269295_1_alg».proof.Proof.Gen.Kernel
import proofs.«421766_j4561255269295_1_alg».proof.Proof.Gen.KernelIdeal
import proofs.«421766_j4561255269295_1_alg».proof.Proof.Gen.ReferenceIdeal
import proofs.«421766_j4561255269295_1_alg».proof.Proof.Gen.ReferenceIdeal.Run
import proofs.«421766_j4561255269295_1_alg».proof.Proof.Gen.Pre_finite_inputs
import proofs.«421766_j4561255269295_1_alg».proof.Proof.Spec
import proofs.«421766_j4561255269295_1_alg».proof.Proof.K.Frame
import proofs.«421766_j4561255269295_1_alg».proof.Proof.KI.Frame
import proofs.«421766_j4561255269295_1_alg».proof.Proof.KI.Value
import proofs.«421766_j4561255269295_1_alg».proof.Proof.Ref.Value
import proofs.«421766_j4561255269295_1_alg».proof.Proof.Bridge
import Idealize.ShloMosaic.Adequacy
import Idealize.ShloMosaic.Init

noncomputable section

namespace Cert.Proof

open Idealize.ShloMosaic Idealize.ShloMosaic.TcCoe Idealize.SL.Sem

theorem frame_K : Cert.frame_Kernel := fun m ρ _ => Cert.Kernel.Hand.frame (F := Bits) m ρ

theorem frame_KI : Cert.frame_KernelIdeal := fun m ρ _ => Cert.KernelIdeal.Hand.frame (F := Ideal) m ρ

theorem frame_RI : Cert.frame_ReferenceIdeal := fun m ρ _ =>
  (θ_run Cert.ReferenceIdeal.defs _ _).mono (fun _ h c => (h c).2.2) (Cert.ReferenceIdeal.Value.run (F := Ideal) m ρ)

open Cert.ReferenceIdeal.RefVal Cert.KernelIdeal.Val in
set_option maxHeartbeats 1000000 in
-- Both results are one function of the arguments; the reference's arguments are the kernel program's.
theorem algebraic : Cert.algebraic_KernelIdeal_ReferenceIdeal := by
  intro m ρ m' ρ' _ hagree
  refine ⟨fun c => L m c, fun c => Spec.logsm (L m c), run_value m ρ,
    (θ_run Cert.ReferenceIdeal.defs _ _).mono (fun _ h c => ?_) (Cert.ReferenceIdeal.Value.run (F := Ideal) m' ρ')⟩
  obtain ⟨a0, a1, a2, a3, a4, a5, a6, a7, a8, a9, a10, a11, a12, a13, a14, a15, a16, a17, a18, a19, a20, a21, a22, a23, a24, a25, a26, a27, a28, a29, a30⟩ := hagree c
  have h1 : refH1 m' c = H1 m c := by
    unfold refH1 H1; rw [a0, a29, a1, a2, a3, a4, a5, a6, a7, a8, Cert.Proof.Bridge.agg3_eq]
  have h2 : refH2 m' c = H2 m c := by
    unfold refH2 H2; rw [h1, a29, a9, a10, a11, a12, a13, a14, a15, a16, Cert.Proof.Bridge.agg64_eq]
  have h3 : refH3 m' c = H3 m c := by
    unfold refH3 H3; rw [h2, a29, a17, a18, a19, a20, a21, a22, a23, a24, Cert.Proof.Bridge.agg64_eq]
  refine ⟨(h c).1.trans ((res0_eq m' c).trans ?k), (h c).2.1.trans ((res1_eq m' c).trans (congrArg Spec.logsm ?k)), (h c).2.2⟩
  unfold L P; rw [h1, h2, h3, a30, a25, a26, a27, a28]

theorem claim : Cert.Claim :=
  ⟨Cert.Kernel.Gen.facts, Cert.KernelIdeal.Gen.facts, Cert.ReferenceIdeal.Gen.facts, Cert.Pre_finite_inputs.Gen.facts,
    frame_K, frame_KI, frame_RI, trivial, algebraic⟩

end Cert.Proof

end
